-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1280 : Shape := ⟨2, ![10000, 1280]⟩
abbrev S160000 : Shape := ⟨1, ![160000]⟩
abbrev S2x160000 : Shape := ⟨2, ![2, 160000]⟩
abbrev S1280x1280 : Shape := ⟨2, ![1280, 1280]⟩
abbrev S1280 : Shape := ⟨1, ![1280]⟩
abbrev S_ : Shape := ⟨0, ![]⟩
abbrev S1x160000 : Shape := ⟨2, ![1, 160000]⟩

class Facts : Prop where
  bcast_S_S10000x1280 : S_.BroadcastsInDim S10000x1280 (![] : Fin 0 → Fin S10000x1280.rank)
  reducesTo_S10000x1280_S_d0_1 : S10000x1280.ReducesTo [0, 1] S_
  h_S_ : 0 < S_.numel
  bcast_S_S160000 : S_.BroadcastsInDim S160000 (![] : Fin 0 → Fin S160000.rank)
  reducesTo_S160000_S_d0 : S160000.ReducesTo [0] S_
  bcast_S_S1280x1280 : S_.BroadcastsInDim S1280x1280 (![] : Fin 0 → Fin S1280x1280.rank)
  reducesTo_S1280x1280_S_d0_1 : S1280x1280.ReducesTo [0, 1] S_
  bcast_S_S1280 : S_.BroadcastsInDim S1280 (![] : Fin 0 → Fin S1280.rank)
  reducesTo_S1280_S_d0 : S1280.ReducesTo [0] S_
  bcast_S_S2x160000 : S_.BroadcastsInDim S2x160000 (![] : Fin 0 → Fin S2x160000.rank)
  reducesTo_S2x160000_S_d0_1 : S2x160000.ReducesTo [0, 1] S_
  slices_S2x160000_S1x160000_0_0 : S2x160000.Slices ![0, 0] S1x160000
  shapeCasts_S1x160000_S160000 : S1x160000.ShapeCasts S160000

variable [Facts]

def fn_part2 {F : FTy → Type} [FloatOps F] (main_v32 : IVec S_ 1) (main_v33 : IVec S1x160000 32) : IVec S_ 1 :=
  let main_v34 : IVec S160000 32 := shapeCast S160000 main_v33 shapeCasts_S1x160000_S160000
  let main_c_12 : IVec S_ 32 := constantI S_ 32 10000#32
  let main_v35 : IVec S160000 32 := broadcastInDim S160000 ![] bcast_S_S160000 main_c_12
  let main_v36 : IVec S160000 1 := cmpi .slt main_v34 main_v35
  let main_c_13 : IVec S_ 1 := constantI S_ 1 1#1
  let main_v37 : IVec S_ 1 := (fun x v => Host.reduce IntOp.andi x v reducesTo_S160000_S_d0 h_S_) main_v36 main_c_13
  let main_v38 : IVec S_ 1 := andi main_v32 main_v37
  main_v38

def fn_part1 {F : FTy → Type} [FloatOps F] (main_arg2 : IVec S2x160000 32) (main_arg5 : FVec F S1280x1280 .f32) (main_arg6 : FVec F S1280 .f32) (main_v13 : IVec S_ 1) (main_v16 : IVec S1280 1) : IVec S_ 1 :=
  let main_c_5 : IVec S_ 1 := constantI S_ 1 1#1
  let main_v17 : IVec S_ 1 := (fun x v => Host.reduce IntOp.andi x v reducesTo_S1280_S_d0 h_S_) main_v16 main_c_5
  let main_v18 : IVec S_ 1 := andi main_v13 main_v17
  let main_v19 : FVec F S1280x1280 .f32 := Host.absf main_arg5
  let main_cst_6 : FVec F S_ .f32 := constant S_ .f32 0x7F800000#32
  let main_v20 : FVec F S1280x1280 .f32 := broadcastInDim S1280x1280 ![] bcast_S_S1280x1280 main_cst_6
  let main_v21 : IVec S1280x1280 1 := cmpf .olt main_v19 main_v20
  let main_c_7 : IVec S_ 1 := constantI S_ 1 1#1
  let main_v22 : IVec S_ 1 := (fun x v => Host.reduce IntOp.andi x v reducesTo_S1280x1280_S_d0_1 h_S_) main_v21 main_c_7
  let main_v23 : IVec S_ 1 := andi main_v18 main_v22
  let main_v24 : FVec F S1280 .f32 := Host.absf main_arg6
  let main_cst_8 : FVec F S_ .f32 := constant S_ .f32 0x7F800000#32
  let main_v25 : FVec F S1280 .f32 := broadcastInDim S1280 ![] bcast_S_S1280 main_cst_8
  let main_v26 : IVec S1280 1 := cmpf .olt main_v24 main_v25
  let main_c_9 : IVec S_ 1 := constantI S_ 1 1#1
  let main_v27 : IVec S_ 1 := (fun x v => Host.reduce IntOp.andi x v reducesTo_S1280_S_d0 h_S_) main_v26 main_c_9
  let main_v28 : IVec S_ 1 := andi main_v23 main_v27
  let main_c_10 : IVec S_ 32 := constantI S_ 32 0#32
  let main_v29 : IVec S2x160000 32 := broadcastInDim S2x160000 ![] bcast_S_S2x160000 main_c_10
  let main_v30 : IVec S2x160000 1 := cmpi .sge main_arg2 main_v29
  let main_c_11 : IVec S_ 1 := constantI S_ 1 1#1
  let main_v31 : IVec S_ 1 := (fun x v => Host.reduce IntOp.andi x v reducesTo_S2x160000_S_d0_1 h_S_) main_v30 main_c_11
  let main_v32 : IVec S_ 1 := andi main_v28 main_v31
  let main_v33 : IVec S1x160000 32 := (extractStridedSlice S1x160000 ![0, 0] · slices_S2x160000_S1x160000_0_0) main_arg2
  fn_part2 (F := F) main_v32 main_v33

def fn {F : FTy → Type} [FloatOps F] (main_arg0 : FVec F S10000x1280 .f32) (main_arg1 : FVec F S160000 .f32) (main_arg2 : IVec S2x160000 32) (main_arg3 : FVec F S1280x1280 .f32) (main_arg4 : FVec F S1280 .f32) (main_arg5 : FVec F S1280x1280 .f32) (main_arg6 : FVec F S1280 .f32) : IVec S_ 1 :=
  let main_v0 : FVec F S10000x1280 .f32 := Host.absf main_arg0
  let main_cst : FVec F S_ .f32 := constant S_ .f32 0x7F800000#32
  let main_v1 : FVec F S10000x1280 .f32 := broadcastInDim S10000x1280 ![] bcast_S_S10000x1280 main_cst
  let main_v2 : IVec S10000x1280 1 := cmpf .olt main_v0 main_v1
  let main_c : IVec S_ 1 := constantI S_ 1 1#1
  let main_v3 : IVec S_ 1 := (fun x v => Host.reduce IntOp.andi x v reducesTo_S10000x1280_S_d0_1 h_S_) main_v2 main_c
  let main_v4 : FVec F S160000 .f32 := Host.absf main_arg1
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S1280x1280 .f32 := Host.absf main_arg3
  let main_cst_2 : FVec F S_ .f32 := constant S_ .f32 0x7F800000#32
  let main_v10 : FVec F S1280x1280 .f32 := broadcastInDim S1280x1280 ![] bcast_S_S1280x1280 main_cst_2
  let main_v11 : IVec S1280x1280 1 := cmpf .olt main_v9 main_v10
  let main_c_3 : IVec S_ 1 := constantI S_ 1 1#1
  let main_v12 : IVec S_ 1 := (fun x v => Host.reduce IntOp.andi x v reducesTo_S1280x1280_S_d0_1 h_S_) main_v11 main_c_3
  let main_v13 : IVec S_ 1 := andi main_v8 main_v12
  let main_v14 : FVec F S1280 .f32 := Host.absf main_arg4
  let main_cst_4 : FVec F S_ .f32 := constant S_ .f32 0x7F800000#32
  let main_v15 : FVec F S1280 .f32 := broadcastInDim S1280 ![] bcast_S_S1280 main_cst_4
  let main_v16 : IVec S1280 1 := cmpf .olt main_v14 main_v15
  fn_part1 (F := F) main_arg2 main_arg5 main_arg6 main_v13 main_v16
-- ==== Kernel.lean ====
abbrev S10000x1280 : Shape := ⟨2, ![10000, 1280]⟩
abbrev S160000 : Shape := ⟨1, ![160000]⟩
abbrev S2x160000 : Shape := ⟨2, ![2, 160000]⟩
abbrev S1280x1280 : Shape := ⟨2, ![1280, 1280]⟩
abbrev S1280 : Shape := ⟨1, ![1280]⟩
abbrev S1x160000 : Shape := ⟨2, ![1, 160000]⟩
abbrev S_ : Shape := ⟨0, ![]⟩
abbrev S10240x10240 : Shape := ⟨2, ![10240, 10240]⟩
abbrev S160000x1 : Shape := ⟨2, ![160000, 1]⟩
abbrev S160000x2 : Shape := ⟨2, ![160000, 2]⟩
abbrev S10240x1280 : Shape := ⟨2, ![10240, 1280]⟩
abbrev S1x1280 : Shape := ⟨2, ![1, 1280]⟩
abbrev S512x2048 : Shape := ⟨2, ![512, 2048]⟩
abbrev S2048x1280 : Shape := ⟨2, ![2048, 1280]⟩
abbrev S512x1280 : Shape := ⟨2, ![512, 1280]⟩
abbrev S1000x1280 : Shape := ⟨2, ![1000, 1280]⟩

abbrev nBuf : Space → Nat
  | .hbm => 56
  | .vmem => 36
  | .smem => 0
  | _ => 0

abbrev bufTy : (tb : Table) → Fin (tcTables nBuf tb) → BufTy
  | .hbm, ⟨0, _⟩ => ⟨S10000x1280, .f32⟩
  | .hbm, ⟨1, _⟩ => ⟨S160000, .f32⟩
  | .hbm, ⟨2, _⟩ => ⟨S2x160000, .i32⟩
  | .hbm, ⟨3, _⟩ => ⟨S1280x1280, .f32⟩
  | .hbm, ⟨4, _⟩ => ⟨S1280, .f32⟩
  | .hbm, ⟨5, _⟩ => ⟨S1280x1280, .f32⟩
  | .hbm, ⟨6, _⟩ => ⟨S1280, .f32⟩
  | .hbm, ⟨7, _⟩ => ⟨S1x160000, .i32⟩
  | .hbm, ⟨8, _⟩ => ⟨S160000, .i32⟩
  | .hbm, ⟨9, _⟩ => ⟨S1x160000, .i32⟩
  | .hbm, ⟨10, _⟩ => ⟨S160000, .i32⟩
  | .hbm, ⟨11, _⟩ => ⟨S160000, .f32⟩
  | .hbm, ⟨12, _⟩ => ⟨S_, .f32⟩
  | .hbm, ⟨13, _⟩ => ⟨S160000, .f32⟩
  | .hbm, ⟨14, _⟩ => ⟨S160000, .f32⟩
  | .hbm, ⟨15, _⟩ => ⟨S_, .f32⟩
  | .hbm, ⟨16, _⟩ => ⟨S160000, .f32⟩
  | .hbm, ⟨17, _⟩ => ⟨S160000, .f32⟩
  | .hbm, ⟨18, _⟩ => ⟨S_, .f32⟩
  | .hbm, ⟨19, _⟩ => ⟨S10240x10240, .f32⟩
  | .hbm, ⟨20, _⟩ => ⟨S_, .i32⟩
  | .hbm, ⟨21, _⟩ => ⟨S160000, .i32⟩
  | .hbm, ⟨22, _⟩ => ⟨S160000, .i1⟩
  | .hbm, ⟨23, _⟩ => ⟨S_, .i32⟩
  | .hbm, ⟨24, _⟩ => ⟨S160000, .i32⟩
  | .hbm, ⟨25, _⟩ => ⟨S160000, .i32⟩
  | .hbm, ⟨26, _⟩ => ⟨S160000, .i32⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S160000x1, .i32⟩
  | .hbm, ⟨36, _⟩ => ⟨S160000x2, .i32⟩
  | .hbm, ⟨37, _⟩ => ⟨S10240x10240, .f32⟩
  | .hbm, ⟨38, _⟩ => ⟨S10240x10240, .bf16⟩
  | .hbm, ⟨39, _⟩ => ⟨S_, .i32⟩
  | .hbm, ⟨40, _⟩ => ⟨S_, .f32⟩
  | .hbm, ⟨41, _⟩ => ⟨S10240x1280, .f32⟩
  | .hbm, ⟨42, _⟩ => ⟨S1280x1280, .f32⟩
  | .hbm, ⟨43, _⟩ => ⟨S1280x1280, .bf16⟩
  | .hbm, ⟨44, _⟩ => ⟨S1280x1280, .f32⟩
  | .hbm, ⟨45, _⟩ => ⟨S1280x1280, .bf16⟩
  | .hbm, ⟨46, _⟩ => ⟨S1x1280, .f32⟩
  | .hbm, ⟨47, _⟩ => ⟨S1x1280, .f32⟩
  | .hbm, ⟨48, _⟩ => ⟨S10240x1280, .bf16⟩
  | .hbm, ⟨49, _⟩ => ⟨S10240x1280, .f32⟩
  | .hbm, ⟨50, _⟩ => ⟨S10240x1280, .f32⟩
  | .hbm, ⟨51, _⟩ => ⟨S10240x1280, .bf16⟩
  | .hbm, ⟨52, _⟩ => ⟨S10240x1280, .f32⟩
  | .hbm, ⟨53, _⟩ => ⟨S10240x1280, .f32⟩
  | .hbm, ⟨54, _⟩ => ⟨S10000x1280, .f32⟩
  | .hbm, ⟨55, _⟩ => ⟨S1x1280, .f32⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S2048x1280, .bf16⟩
  | .local _ .vmem, ⟨4, _⟩ => ⟨S512x1280, .f32⟩
  | .local _ .vmem, ⟨5, _⟩ => ⟨S512x1280, .f32⟩
  | .local _ .vmem, ⟨6, _⟩ => ⟨S512x1280, .f32⟩
  | .local _ .vmem, ⟨7, _⟩ => ⟨S512x1280, .f32⟩
  | .local _ .vmem, ⟨8, _⟩ => ⟨S512x1280, .f32⟩
  | .local _ .vmem, ⟨9, _⟩ => ⟨S512x1280, .f32⟩
  | .local _ .vmem, ⟨10, _⟩ => ⟨S512x1280, .f32⟩
  | .local _ .vmem, ⟨11, _⟩ => ⟨S1280x1280, .bf16⟩
  | .local _ .vmem, ⟨12, _⟩ => ⟨S1x1280, .f32⟩
  | .local _ .vmem, ⟨13, _⟩ => ⟨S512x1280, .f32⟩
  | .local _ .vmem, ⟨14, _⟩ => ⟨S512x1280, .f32⟩
  | .local _ .vmem, ⟨15, _⟩ => ⟨S512x2048, .bf16⟩
  | .local _ .vmem, ⟨16, _⟩ => ⟨S512x2048, .bf16⟩
  | .local _ .vmem, ⟨17, _⟩ => ⟨S2048x1280, .bf16⟩
  | .local _ .vmem, ⟨18, _⟩ => ⟨S2048x1280, .bf16⟩
  | .local _ .vmem, ⟨19, _⟩ => ⟨S512x1280, .f32⟩
  | .local _ .vmem, ⟨20, _⟩ => ⟨S512x1280, .f32⟩
  | .local _ .vmem, ⟨21, _⟩ => ⟨S512x1280, .f32⟩
  | .local _ .vmem, ⟨22, _⟩ => ⟨S512x1280, .f32⟩
  | .local _ .vmem, ⟨23, _⟩ => ⟨S512x1280, .f32⟩
  | .local _ .vmem, ⟨24, _⟩ => ⟨S512x1280, .f32⟩
  | .local _ .vmem, ⟨25, _⟩ => ⟨S512x1280, .f32⟩
  | .local _ .vmem, ⟨26, _⟩ => ⟨S1280x1280, .bf16⟩
  | .local _ .vmem, ⟨27, _⟩ => ⟨S1x1280, .f32⟩
  | .local _ .vmem, ⟨28, _⟩ => ⟨S512x1280, .f32⟩
  | .local _ .vmem, ⟨29, _⟩ => ⟨S512x1280, .f32⟩
  | .local _ .vmem, ⟨30, _⟩ => ⟨S1000x1280, .f32⟩
  | .local _ .vmem, ⟨31, _⟩ => ⟨S1000x1280, .f32⟩
  | .local _ .vmem, ⟨32, _⟩ => ⟨S1000x1280, .f32⟩
  | .local _ .vmem, ⟨33, _⟩ => ⟨S1000x1280, .f32⟩
  | .local _ .vmem, ⟨34, _⟩ => ⟨S1x1280, .f32⟩
  | .local _ .vmem, ⟨35, _⟩ => ⟨S1x1280, .f32⟩
  | _, _ => ⟨S10000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32

abbrev nD : Nat := 1
abbrev τ : Topo := Topo.v7x

variable {F : FTy → Type} [FloatOps F]

abbrev grid0 : Pipeline.Grid := ⟨2, ![20, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1280x1280 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1280 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![20, 5], ![false, false]⟩

def k2_cond2 (i : grid2.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1280 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1280x1280 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1280 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1280 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x1280 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1280 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1280 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10240x10240 : S_.BroadcastsInDim S10240x10240 (![] : Fin 0 → Fin S10240x10240.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bitsLt_bf16_f32 : FTy.bits .bf16 < FTy.bits .f32
  pads_S10000x1280_S10240x1280_02400_000 : S10000x1280.Pads (![0, 0] : Fin 2 → Nat) ![240, 0] ![0, 0] S10240x1280
  h_S_ : 0 < S_.numel
  transposes_S1280x1280_S1280x1280_1_0 : S1280x1280.Transposes [1, 0] S1280x1280
  shapeCasts_S1280_S1x1280 : S1280.ShapeCasts S1x1280
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1280_S2048x1280_0_0 : ∀ a, (![0, 0] : Fin 2 → Nat) a + S2048x1280.size a ≤ S2048x1280.size a
  h_S2048x1280 : 0 < S2048x1280.numel
  shapeCasts_S2048x1280_S2048x1280 : S2048x1280.ShapeCasts S2048x1280
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  slices_S10240x1280_S10000x1280_0_0 : S10240x1280.Slices ![0, 0] S10000x1280
  inb_S1000x1280_S1000x1280_0_0 : ∀ a, (![0, 0] : Fin 2 → Nat) a + S1000x1280.size a ≤ S1000x1280.size a
  h_S1000x1280 : 0 < S1000x1280.numel
  shapeCasts_S1000x1280_S1000x1280 : S1000x1280.ShapeCasts S1000x1280
  reduces_S1000x1280_S1280 : S1000x1280.Reduces [0] S1280
  scatter_S10240x10240_S160000x2_S160000_n_01_01_1_wf : ScatterDims.WF S10240x10240 S160000x2 S160000 [] [0, 1] [0, 1] 1
  dot_S512x2048_S2048x1280_S512x1280_1_0_0_1_n_n_wf : DotDims.WF S512x2048 S2048x1280 S512x1280 [1] [0] [0] [1] [] []
  dot_S512x1280_S1280x1280_S512x1280_1_0_0_1_n_n_wf : DotDims.WF S512x1280 S1280x1280 S512x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S10240x10240.size a
  hwx0_0 : ∀ i : grid0.Coords, EltTy.bits .bf16 = 32 ∨ (Rect.block (s := S10240x10240) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1280.size a ≤ S10240x1280.size a
  hwx0_1 : ∀ i : grid0.Coords, EltTy.bits .bf16 = 32 ∨ (Rect.block (s := S10240x1280) S2048x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1280.size a ≤ S10240x1280.size a
  hwx0_2 : ∀ i : grid0.Coords, EltTy.bits .f32 = 32 ∨ (Rect.block (s := S10240x1280) S512x1280.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1280.size a ≤ S10240x1280.size a
  hwx1_0 : ∀ i : grid1.Coords, EltTy.bits .f32 = 32 ∨ (Rect.block (s := S10240x1280) S512x1280.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1280.size a ≤ S10240x1280.size a
  hwx1_1 : ∀ i : grid1.Coords, EltTy.bits .f32 = 32 ∨ (Rect.block (s := S10240x1280) S512x1280.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1280x1280.size a ≤ S1280x1280.size a
  hwx1_2 : ∀ i : grid1.Coords, EltTy.bits .bf16 = 32 ∨ (Rect.block (s := S1280x1280) S1280x1280.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1280.size a ≤ S1x1280.size a
  hwx1_3 : ∀ i : grid1.Coords, EltTy.bits .f32 = 32 ∨ (Rect.block (s := S1x1280) S1x1280.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1280.size a ≤ S10240x1280.size a
  hwx1_4 : ∀ i : grid1.Coords, EltTy.bits .f32 = 32 ∨ (Rect.block (s := S10240x1280) S512x1280.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S10240x10240.size a
  hwx2_0 : ∀ i : grid2.Coords, EltTy.bits .bf16 = 32 ∨ (Rect.block (s := S10240x10240) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1280.size a ≤ S10240x1280.size a
  hwx2_1 : ∀ i : grid2.Coords, EltTy.bits .bf16 = 32 ∨ (Rect.block (s := S10240x1280) S2048x1280.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1280.size a ≤ S10240x1280.size a
  hwx2_2 : ∀ i : grid2.Coords, EltTy.bits .f32 = 32 ∨ (Rect.block (s := S10240x1280) S512x1280.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1280.size a ≤ S10240x1280.size a
  hwx3_0 : ∀ i : grid3.Coords, EltTy.bits .f32 = 32 ∨ (Rect.block (s := S10240x1280) S512x1280.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1280.size a ≤ S10240x1280.size a
  hwx3_1 : ∀ i : grid3.Coords, EltTy.bits .f32 = 32 ∨ (Rect.block (s := S10240x1280) S512x1280.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1280x1280.size a ≤ S1280x1280.size a
  hwx3_2 : ∀ i : grid3.Coords, EltTy.bits .bf16 = 32 ∨ (Rect.block (s := S1280x1280) S1280x1280.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1280.size a ≤ S1x1280.size a
  hwx3_3 : ∀ i : grid3.Coords, EltTy.bits .f32 = 32 ∨ (Rect.block (s := S1x1280) S1x1280.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x1280.size a ≤ S10240x1280.size a
  hwx3_4 : ∀ i : grid3.Coords, EltTy.bits .f32 = 32 ∨ (Rect.block (s := S10240x1280) S512x1280.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x1280.size a ≤ S10000x1280.size a
  hwx4_0 : ∀ i : grid4.Coords, EltTy.bits .f32 = 32 ∨ (Rect.block (s := S10000x1280) S1000x1280.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1280.size a ≤ S10000x1280.size a
  hwx4_1 : ∀ i : grid4.Coords, EltTy.bits .f32 = 32 ∨ (Rect.block (s := S10000x1280) S1000x1280.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1280.size a ≤ S1x1280.size a
  hwx4_2 : ∀ i : grid4.Coords, EltTy.bits .f32 = 32 ∨ (Rect.block (s := S1x1280) S1x1280.size (cc4_transform_2 i) (hinb4_2 i)).WholeWords (EltTy.packing .f32)

variable [Facts₀]

def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S512x2048_S2048x1280_S512x1280_1_0_0_1_n_n : DotDims S512x2048 S2048x1280 S512x1280 where
  lhsContracting := [1]
  rhsContracting := [0]
  lhsNonContracting := [0]
  rhsNonContracting := [1]
  lhsBatch := []
  rhsBatch := []
  wf := dot_S512x2048_S2048x1280_S512x1280_1_0_0_1_n_n_wf
def dot_S512x1280_S1280x1280_S512x1280_1_0_0_1_n_n : DotDims S512x1280 S1280x1280 S512x1280 where
  lhsContracting := [1]
  rhsContracting := [0]
  lhsNonContracting := [0]
  rhsNonContracting := [1]
  lhsBatch := []
  rhsBatch := []
  wf := dot_S512x1280_S1280x1280_S512x1280_1_0_0_1_n_n_wf

abbrev win0_0 : Pipeline.Window sig grid0 :=
  Pipeline.Window.ofSpec (Memref.whole main_v24) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S2048x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S512x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v25) S512x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S512x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1280x1280.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x1280.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S512x1280.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2048x1280.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S512x1280.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v34) S512x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S512x1280.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1280x1280.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x1280.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S512x1280.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S1000x1280.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S1000x1280.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S1x1280.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S10000x1280 : Shape := ⟨2, ![10000, 1280]⟩
abbrev S160000 : Shape := ⟨1, ![160000]⟩
abbrev S2x160000 : Shape := ⟨2, ![2, 160000]⟩
abbrev S1280x1280 : Shape := ⟨2, ![1280, 1280]⟩
abbrev S1280 : Shape := ⟨1, ![1280]⟩
abbrev S1x160000 : Shape := ⟨2, ![1, 160000]⟩
abbrev S_ : Shape := ⟨0, ![]⟩
abbrev S160000x1 : Shape := ⟨2, ![160000, 1]⟩
abbrev S160000x1280 : Shape := ⟨2, ![160000, 1280]⟩
abbrev S1x1280 : Shape := ⟨2, ![1, 1280]⟩

abbrev nBuf : Space → Nat
  | .hbm => 69
  | .vmem => 0
  | .smem => 0
  | _ => 0

abbrev bufTy : (tb : Table) → Fin (tcTables nBuf tb) → BufTy
  | .hbm, ⟨0, _⟩ => ⟨S10000x1280, .f32⟩
  | .hbm, ⟨1, _⟩ => ⟨S160000, .f32⟩
  | .hbm, ⟨2, _⟩ => ⟨S2x160000, .i32⟩
  | .hbm, ⟨3, _⟩ => ⟨S1280x1280, .f32⟩
  | .hbm, ⟨4, _⟩ => ⟨S1280, .f32⟩
  | .hbm, ⟨5, _⟩ => ⟨S1280x1280, .f32⟩
  | .hbm, ⟨6, _⟩ => ⟨S1280, .f32⟩
  | .hbm, ⟨7, _⟩ => ⟨S1x160000, .i32⟩
  | .hbm, ⟨8, _⟩ => ⟨S160000, .i32⟩
  | .hbm, ⟨9, _⟩ => ⟨S1x160000, .i32⟩
  | .hbm, ⟨10, _⟩ => ⟨S160000, .i32⟩
  | .hbm, ⟨11, _⟩ => ⟨S160000, .f32⟩
  | .hbm, ⟨12, _⟩ => ⟨S_, .f32⟩
  | .hbm, ⟨13, _⟩ => ⟨S160000, .f32⟩
  | .hbm, ⟨14, _⟩ => ⟨S160000, .f32⟩
  | .hbm, ⟨15, _⟩ => ⟨S_, .f32⟩
  | .hbm, ⟨16, _⟩ => ⟨S160000, .f32⟩
  | .hbm, ⟨17, _⟩ => ⟨S160000, .f32⟩
  | .hbm, ⟨18, _⟩ => ⟨S_, .i32⟩
  | .hbm, ⟨19, _⟩ => ⟨S160000, .i32⟩
  | .hbm, ⟨20, _⟩ => ⟨S160000, .i1⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S160000x1, .i32⟩
  | .hbm, ⟨26, _⟩ => ⟨S160000x1280, .f32⟩
  | .hbm, ⟨27, _⟩ => ⟨S160000x1, .f32⟩
  | .hbm, ⟨28, _⟩ => ⟨S160000x1280, .f32⟩
  | .hbm, ⟨29, _⟩ => ⟨S160000x1280, .f32⟩
  | .hbm, ⟨30, _⟩ => ⟨S_, .f32⟩
  | .hbm, ⟨31, _⟩ => ⟨S10000x1280, .f32⟩
  | .hbm, ⟨32, _⟩ => ⟨S160000x1, .i32⟩
  | .hbm, ⟨33, _⟩ => ⟨S10000x1280, .f32⟩
  | .hbm, ⟨34, _⟩ => ⟨S10000x1280, .f32⟩
  | .hbm, ⟨35, _⟩ => ⟨S1280x1280, .f32⟩
  | .hbm, ⟨36, _⟩ => ⟨S10000x1280, .f32⟩
  | .hbm, ⟨37, _⟩ => ⟨S1x1280, .f32⟩
  | .hbm, ⟨38, _⟩ => ⟨S10000x1280, .f32⟩
  | .hbm, ⟨39, _⟩ => ⟨S10000x1280, .f32⟩
  | .hbm, ⟨40, _⟩ => ⟨S_, .i32⟩
  | .hbm, ⟨41, _⟩ => ⟨S160000, .i32⟩
  | .hbm, ⟨42, _⟩ => ⟨S160000, .i1⟩
  | .hbm, ⟨43, _⟩ => ⟨S_, .i32⟩
  | .hbm, ⟨44, _⟩ => ⟨S160000, .i32⟩
  | .hbm, ⟨45, _⟩ => ⟨S160000, .i32⟩
  | .hbm, ⟨46, _⟩ => ⟨S160000, .i32⟩
  | .hbm, ⟨47, _⟩ => ⟨S160000x1, .i32⟩
  | .hbm, ⟨48, _⟩ => ⟨S160000x1280, .f32⟩
  | .hbm, ⟨49, _⟩ => ⟨S160000x1, .f32⟩
  | .hbm, ⟨50, _⟩ => ⟨S160000x1280, .f32⟩
  | .hbm, ⟨51, _⟩ => ⟨S160000x1280, .f32⟩
  | .hbm, ⟨52, _⟩ => ⟨S_, .f32⟩
  | .hbm, ⟨53, _⟩ => ⟨S10000x1280, .f32⟩
  | .hbm, ⟨54, _⟩ => ⟨S160000x1, .i32⟩
  | .hbm, ⟨55, _⟩ => ⟨S10000x1280, .f32⟩
  | .hbm, ⟨56, _⟩ => ⟨S10000x1280, .f32⟩
  | .hbm, ⟨57, _⟩ => ⟨S1280x1280, .f32⟩
  | .hbm, ⟨58, _⟩ => ⟨S10000x1280, .f32⟩
  | .hbm, ⟨59, _⟩ => ⟨S1x1280, .f32⟩
  | .hbm, ⟨60, _⟩ => ⟨S10000x1280, .f32⟩
  | .hbm, ⟨61, _⟩ => ⟨S10000x1280, .f32⟩
  | .hbm, ⟨62, _⟩ => ⟨S10000x1280, .f32⟩
  | .hbm, ⟨63, _⟩ => ⟨S_, .f32⟩
  | .hbm, ⟨64, _⟩ => ⟨S1280, .f32⟩
  | .hbm, ⟨65, _⟩ => ⟨S1x1280, .f32⟩
  | .hbm, ⟨66, _⟩ => ⟨S_, .f32⟩
  | .hbm, ⟨67, _⟩ => ⟨S1x1280, .f32⟩
  | .hbm, ⟨68, _⟩ => ⟨S1x1280, .f32⟩
  | _, _ => ⟨S10000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x1280_0_1 : S160000x1.BroadcastsInDim S160000x1280 (![0, 1] : Fin 2 → Fin S160000x1280.rank)
  bcast_S_S10000x1280 : S_.BroadcastsInDim S10000x1280 (![] : Fin 0 → Fin S10000x1280.rank)
  transposes_S1280x1280_S1280x1280_1_0 : S1280x1280.Transposes [1, 0] S1280x1280
  bcast_S1280_S1x1280_1 : S1280.BroadcastsInDim S1x1280 (![1] : Fin 1 → Fin S1x1280.rank)
  bcast_S1x1280_S10000x1280_0_1 : S1x1280.BroadcastsInDim S10000x1280 (![0, 1] : Fin 2 → Fin S10000x1280.rank)
  reducesTo_S10000x1280_S1280_d0 : S10000x1280.ReducesTo [0] S1280
  h_S_ : 0 < S_.numel
  bcast_S_S1x1280 : S_.BroadcastsInDim S1x1280 (![] : Fin 0 → Fin S1x1280.rank)
  gather_S10000x1280_S160000x1_S160000x1280_1_0_n_n_0_1_11280_wf : GatherDims.WF S10000x1280 S160000x1 S160000x1280 [1] [0] [] [0] [] 1 ![1, 1280]
  scatter_S10000x1280_S160000x1_S160000x1280_1_0_0_1_wf : ScatterDims.WF S10000x1280 S160000x1 S160000x1280 [1] [0] [0] 1
  dot_S10000x1280_S1280x1280_S10000x1280_1_0_0_1_n_n_wf : DotDims.WF S10000x1280 S1280x1280 S10000x1280 [1] [0] [0] [1] [] []

variable [Facts₀]

def gather_S10000x1280_S160000x1_S160000x1280_1_0_n_n_0_1_11280 : GatherDims S10000x1280 S160000x1 S160000x1280 where
  offsetDims := [1]
  collapsedSliceDims := [0]
  operandBatchingDims := []
  startIndicesBatchingDims := []
  startIndexMap := [0]
  indexVectorDim := 1
  sliceSizes := ![1, 1280]
  wf := gather_S10000x1280_S160000x1_S160000x1280_1_0_n_n_0_1_11280_wf
def scatter_S10000x1280_S160000x1_S160000x1280_1_0_0_1 : ScatterDims S10000x1280 S160000x1 S160000x1280 where
  updateWindowDims := [1]
  insertedWindowDims := [0]
  scatterDimsToOperandDims := [0]
  indexVectorDim := 1
  wf := scatter_S10000x1280_S160000x1_S160000x1280_1_0_0_1_wf
def dot_S10000x1280_S1280x1280_S10000x1280_1_0_0_1_n_n : DotDims S10000x1280 S1280x1280 S10000x1280 where
  lhsContracting := [1]
  rhsContracting := [0]
  lhsNonContracting := [0]
  rhsNonContracting := [1]
  lhsBatch := []
  rhsBatch := []
  wf := dot_S10000x1280_S1280x1280_S10000x1280_1_0_0_1_n_n_wf

class Facts : Prop extends Facts₀ where

variable [Facts]
-- ==== Proof.K.Reg0.lean ====
import proofs.«425851_j42021960024258_2_alg».proof.Proof.Gen.Kernel.Launch
import proofs.«425851_j42021960024258_2_alg».proof.Proof.Gen.Kernel.Skeleton
import proofs.«425851_j42021960024258_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem offz0 : (![0, 0] : Fin 2 → Nat) = fun _ => 0 := funext fun a => by fin_cases a <;> rfl
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 5 = 0 :=
  (by decide +kernel : ∀ t : Fin grid0.N, cond0_1 (grid0.coords t) ↔ t.val % 5 = 0)
abbrev cond0_2 (i : grid0.Coords) : Prop := k0_cond2 i = 1#1
theorem hcond0_2 : ∀ t : Fin cfg0.N, cond0_2 (grid0.coords t) ↔ t.val % 5 = 4 :=
  (by decide +kernel : ∀ t : Fin grid0.N, cond0_2 (grid0.coords t) ↔ t.val % 5 = 4)
theorem idleAt0_2 : ∀ t : Fin cfg0.N, ¬cond0_2 (grid0.coords t) → cfg0.idle 2 (grid0.coords t) = true :=
  (by decide +kernel : ∀ t : Fin grid0.N, ¬cond0_2 (grid0.coords t) → idle0 2 (grid0.coords t) = true)
theorem liveAt0_2 : ∀ t : Fin cfg0.N, cond0_2 (grid0.coords t) → cfg0.idle 2 (grid0.coords t) = false :=
  (by decide +kernel : ∀ t : Fin grid0.N, cond0_2 (grid0.coords t) → idle0 2 (grid0.coords t) = false)

-- A store through the whole block, made last, leaves its payload whatever was stored before.
theorem read_writes_unit0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons.mpr (.inl rfl), View.mem_set_unit_zero h inb y⟩).trans
    (View.canon_cons_unit_zero h inb w L)

set_option maxHeartbeats 1000000 in
-- The accumulator restarts from zeros where k = 0, gains A·X, and is copied to the output block where k = 4.
theorem sound_kernel0 (c : Dev nD) (E : Set ℕ) (i : grid0.Coords)
    (arg2 : Memref sig .tc .vmem S512x2048 .bf16) (harg2 : arg2.IsWhole) (arg3 : Memref sig .tc .vmem S2048x1280 .bf16) (harg3 : arg3.IsWhole)
    (arg4 : Memref sig .tc .vmem S512x1280 .f32) (harg4 : arg4.IsWhole) (arg5 : Memref sig .tc .vmem S512x1280 .f32) (harg5 : arg5.IsWhole)
    (x0 : Vec F S512x2048 .bf16) (x1 : Vec F S2048x1280 .bf16) (xo xs acc : Vec F S512x1280 .f32)
    (hacc : k0_pay2 (if cond0_1 i then k0_pay1 (F := F) else xs) x0 x1 = acc) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (if cond0_2 i then acc else xo) ∗ owns (c : Thread nD τ) arg5 fullShare acc) -∗ K ⟨⟩))
      ⊢ wp frame (wpE (defs₀ (F := F)) Variants.none c none) E (cc0__agg_kernel i arg2 harg2 arg3 harg3 arg4 harg4 arg5 harg5) K := by
  subst hacc
  simp only [cc0__agg_kernel_eq_skeleton]; unfold cc0__agg_kernel_skel owns
  iintro ⟨⟨%f2, %hf2, H2⟩, ⟨%f3, %hf3, H3⟩, ⟨%f4, %hf4, H4⟩, ⟨%f5, %hf5, H5⟩, Hk⟩
  subst hf2 hf3 hf4 hf5
  sl_exec
  sl_step
  iapply Hk
  isplitl [H2]
  on_goal 2 => isplitl [H3]
  on_goal 3 => isplitl [H4]
  all_goals
    iexists _; isplitr; swap
    · first | iexact H2 | iexact H3 | iexact H4 | iexact H5
    ipureintro
    first
    | rfl
    | sl_unfold_words
      by_cases hc1 : cond0_1 i <;> by_cases hc2 : cond0_2 i <;>
        (first | simp only [dif_neg hc1, if_neg hc1] | simp only [dif_pos hc1, if_pos hc1]) <;>
        (try first | simp only [dif_neg hc2, if_neg hc2] | simp only [dif_pos hc2, if_pos hc2]) <;>
        simp only [read_writes_unit0 (S := S512x1280) _ _ offz0, View.readCov_unit_zero (S := S512x1280) _ offz0, View.readAt_eq_ld,
          View.ld_unit_zero (S := S512x1280) offz0, View.ld_unit_zero (S := S512x2048) offz0, View.ld_unit_zero (S := S2048x1280) offz0]

def acc0 (c : Dev nD) : (n : ℕ) → n < cfg0.N → Vec F S512x1280 .f32
  | 0, h => k0_pay2 (k0_pay1 (F := F)) (iblk0 V c 0 ⟨0, h⟩) (iblk0 V c 1 ⟨0, h⟩)
  | n + 1, h => k0_pay2 (if (n + 1) % 5 = 0 then k0_pay1 (F := F) else acc0 c n (Nat.lt_of_succ_lt h))
      (iblk0 V c 0 ⟨n + 1, h⟩) (iblk0 V c 1 ⟨n + 1, h⟩)
theorem acc0_first (c : Dev nD) (n : ℕ) (h : n < cfg0.N) (h5 : n % 5 = 0) :
    acc0 V c n h = k0_pay2 (k0_pay1 (F := F)) (iblk0 V c 0 ⟨n, h⟩) (iblk0 V c 1 ⟨n, h⟩) := by
  cases n with
  | zero => rfl
  | succ n => rw [acc0, if_pos h5]
theorem acc0_next (c : Dev nD) (n : ℕ) (h : n < cfg0.N) (h5 : n % 5 ≠ 0) :
    acc0 V c n h = k0_pay2 (acc0 V c (n - 1) (Nat.lt_of_le_of_lt (Nat.sub_le _ _) h)) (iblk0 V c 0 ⟨n, h⟩) (iblk0 V c 1 ⟨n, h⟩) := by
  cases n with
  | zero => exact absurd (Nat.zero_mod 5) h5
  | succ n => rw [acc0, if_neg h5]; rfl
-- What the body leaves in the accumulator at point t, if it found there what the point before left.
theorem acc0_step (c : Dev nD) (t : Fin cfg0.N) (a : Vec F S512x1280 .f32) (ha : ∀ m h, t.val = m + 1 → a = acc0 V c m h) :
    k0_pay2 (if cond0_1 (grid0.coords t) then k0_pay1 (F := F) else a) (iblk0 V c 0 t) (iblk0 V c 1 t) = acc0 V c t.val t.isLt := by
  by_cases h0 : t.val % 5 = 0
  · rw [if_pos ((hcond0_1 t).mpr h0), acc0_first V c _ _ h0]
  · rw [if_neg (mt (hcond0_1 t).mp h0), acc0_next V c _ _ h0, ← ha (t.val - 1) _ (by omega)]

abbrev scM0 : Memref sig .tc .vmem S512x1280 .f32 := Memref.whole cc0_scratch0

-- Before point n the accumulator holds what point n - 1 left; before the first point, anything.
def Phi0 (c : Dev nD) (n : ℕ) : sProp 𝕄 :=
  iprop(∃ d : Vec F S512x1280 .f32, ⌜∀ m h, n = m + 1 → d = acc0 V c m h⌝ ∗ owns (c : Thread nD τ) scM0 fullShare d
    ∗ Pipeline.scopedRestBut (Ix := Unit) (Name := ℕ) (U := UR sig nD τ) (Lvl := ℕ) (Val := Elt F) spec0 c [cc0_scratch0]
    ∗ (∃ r, prngReg c r))

theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0, owns_whole]; try rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  (dat0 V c).before_fetched 0 t (fetch0_0 t) d
theorem before0_1 (c : Dev nD) (t : Fin cfg0.N) (d) : (dat0 V c).before 1 t d = iblk0 V c 1 t :=
  (dat0 V c).before_fetched 1 t (fetch0_1 t) d

-- The output block holds the accumulator where k = 4 and is handed back as found elsewhere.
theorem leaves0_2 (c : Dev nD) (t : Fin cfg0.N) (d) :
    owns (c : Thread nD τ) (st0_2 t) fullShare (if cond0_2 (grid0.coords t) then acc0 V c t.val t.isLt else (dat0 V c).before 2 t d)
      ⊢ (dat0 V c).leavesExact 2 t := by
  by_cases h : cond0_2 (grid0.coords t)
  · rw [if_pos h]; unfold Dat.leavesExact; rw [liveAt0_2 t h]; iintro H; iexact H
  · rw [if_neg h, Dat.leavesExact_idle _ 2 t (idleAt0_2 t h)
      (Bool.eq_false_iff.mpr fun hf => h ((hcond0_2 t).mpr ((flush0_2 t).mp hf)))]; iintro H; iexists d; iexact H

theorem sound_body0 (c : Dev nD) (t : Fin cfg0.N) :
    iprop(Phi0 V c t.val ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop(Phi0 V c (t.val + 1) ∗ (dat0 V c).owesAt () t.castSucc
        ∗ owns (c : Thread nD τ) (st0_0 t) fullShare (iblk0 V c 0 t) ∗ owns (c : Thread nD τ) (st0_1 t) fullShare (iblk0 V c 1 t)
        ∗ (dat0 V c).leavesExact 2 t) := by
  simp only [before0_0, before0_1]; unfold Phi0 bodyAt0
  iintro ⟨⟨%a, %ha, HS, HR⟩, Ho, ⟨%d0, H0⟩, ⟨%d1, H1⟩, ⟨%d2, H2⟩⟩
  iapply (sound_kernel0 c Set.univ (grid0.coords t) _ _ _ _ _ _ _ _ (iblk0 V c 0 t) (iblk0 V c 1 t) _ a _ (acc0_step V c t a ha) _)
  iframe H0 H1 H2 HS
  iintro ⟨H0, H1, H2, HS⟩
  iframe Ho H0 H1
  isplitr [H2]
  · iexists (acc0 V c t.val t.isLt); iframe; ipureintro; exact fun m h e => by obtain rfl := Nat.add_right_cancel e; rfl
  iapply (leaves0_2 V c t d2); iexact H2

theorem body_obligation0 (c : Dev nD) : BodyObligation (dat0 (F := F) V c) (defs₀ (F := F)) Variants.none () Set.univ := fun t => by
  rw [bigSep_W0, bigSep_W0]
  exact sound_body0 V c t

theorem PhiIn0 (c : Dev nD) : Pipeline.ΦA spec0 c ⊢ (dat0 V c).Φ 0 := by
  rw [PhiA0_eq]; show _ ⊢ Phi0 V c 0; unfold Phi0
  iintro ⟨⟨⟨%d, HS⟩, HR⟩, Hg⟩
  iexists d; iframe; ipureintro; exact fun m h e => by omega

theorem PhiOut0 (c : Dev nD) : (dat0 V c).Φ (Fin.last cfg0.N) ⊢ Pipeline.ΦA spec0 c := by
  rw [PhiA0_eq]; show Phi0 V c _ ⊢ _; unfold Phi0
  iintro ⟨%d, -, HS, HR, Hg⟩
  iframe HR Hg; iexists d; iexact HS

end Cert.Kernel.Hand

end
-- ==== Proof.K.Reg1.lean ====
import proofs.«425851_j42021960024258_2_alg».proof.Proof.Gen.Kernel.Launch
import proofs.«425851_j42021960024258_2_alg».proof.Proof.Gen.Kernel.Skeleton
import proofs.«425851_j42021960024258_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem zero_off1 : (![0, 0] : Fin 2 → Nat) = fun _ => 0 := funext fun a => by fin_cases a <;> rfl

-- The body reads its four input blocks whole and overwrites the whole output block with their payload.
set_option maxHeartbeats 1000000 in
theorem sound_kernel1 (c : Dev nD) (E : Set ℕ) (i : grid1.Coords)
    (arg1 : Memref sig .tc .vmem S512x1280 .f32) (harg1 : arg1.IsWhole) (arg2 : Memref sig .tc .vmem S512x1280 .f32) (harg2 : arg2.IsWhole)
    (arg3 : Memref sig .tc .vmem S1280x1280 .bf16) (harg3 : arg3.IsWhole) (arg4 : Memref sig .tc .vmem S1x1280 .f32) (harg4 : arg4.IsWhole)
    (arg5 : Memref sig .tc .vmem S512x1280 .f32) (harg5 : arg5.IsWhole) {D0 D1 D2 D3 D4 : Type}
    {X0 : D0 → Vec F S512x1280 .f32} {x0} (h0 : ∀ d, X0 d = x0) {X1 : D1 → Vec F S512x1280 .f32} {x1} (h1 : ∀ d, X1 d = x1)
    {X2 : D2 → Vec F S1280x1280 .bf16} {x2} (h2 : ∀ d, X2 d = x2) {X3 : D3 → Vec F S1x1280 .f32} {x3} (h3 : ∀ d, X3 d = x3)
    {X4 : D4 → Vec F S512x1280 .f32} (R S : sProp 𝕄) :
    iprop(R ∗ S ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d))
        ∗ ∃ d, owns (c : Thread nD τ) arg5 fullShare (X4 d))
      ⊢ wp frame (wpE (defs₀ (F := F)) Variants.none c none) E
          (cc1__linear_kernel i arg1 harg1 arg2 harg2 arg3 harg3 arg4 harg4 arg5 harg5) fun _ =>
          iprop(R ∗ S ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x0 x1 x2 x3)) := by
  simp only [cc1__linear_kernel_eq_skeleton]; unfold cc1__linear_kernel_skel owns
  iintro ⟨HR, HS, ⟨%d0, %f0, %hf0, H0⟩, ⟨%d1, %f1, %hf1, H1⟩, ⟨%d2, %f2, %hf2, H2⟩, ⟨%d3, %f3, %hf3, H3⟩, ⟨%d4, %f4, -, H4⟩⟩
  obtain rfl := hf0.trans (h0 _); obtain rfl := hf1.trans (h1 _); obtain rfl := hf2.trans (h2 _); obtain rfl := hf3.trans (h3 _)
  sl_exec
  sl_step
  isplitl [HR]; · iexact HR
  isplitl [HS]; · iexact HS
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ fun y => ⟨_, List.mem_singleton_self _, View.mem_set_unit_zero zero_off1 inb_S512x1280_S512x1280_0_0 y⟩,
    View.canon_unit_zero zero_off1]
  congr 1 <;> exact View.ld_unit_zero zero_off1 _ _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = k1_pay1 (iblk1 V c 0 t) (iblk1 V c 1 t) (iblk1 V c 2 t) (iblk1 V c 3 t) := rfl

-- The body leaves every input block as it found it.
theorem before1 (c : Dev nD) (w : Fin cfg1.W) (hw : w ≠ 4) (t : Fin cfg1.N) (d) : (dat1 V c).before w t d = (dat1 V c).after w t := by
  fin_cases w <;> first
    | exact absurd rfl hw
    | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp _ _ _ (bodyAt1 t) _
  exact sound_kernel1 c _ _ _ _ _ _ _ _ _ _ _ _ (before1 V c 0 (by decide) t) (before1 V c 1 (by decide) t)
    (before1 V c 2 (by decide) t) (before1 V c 3 (by decide) t) _ _

theorem PhiIn1 (c : Dev nD) : Pipeline.ΦA spec1 c ⊢ (dat1 V c).Φ 0 := .rfl

theorem PhiOut1 (c : Dev nD) : (dat1 V c).Φ (Fin.last cfg1.N) ⊢ Pipeline.ΦA spec1 c := .rfl

end Cert.Kernel.Hand

end
-- ==== Proof.K.Reg2.lean ====
import proofs.«425851_j42021960024258_2_alg».proof.Proof.Gen.Kernel.Launch
import proofs.«425851_j42021960024258_2_alg».proof.Proof.Gen.Kernel.Skeleton
import proofs.«425851_j42021960024258_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem offz2 : (![0, 0] : Fin 2 → Nat) = fun _ => 0 := funext fun a => by fin_cases a <;> rfl
abbrev cond2_1 (i : grid2.Coords) : Prop := (Scalar.cmpi .ne (Scalar.extui (Scalar.cmpi .eq (BitVec.ofNat 32 (i 1).val) 0#32)) 0#32) = 1#1
theorem hcond2_1 : ∀ t : Fin cfg2.N, cond2_1 (grid2.coords t) ↔ t.val % 5 = 0 :=
  (by decide +kernel : ∀ t : Fin grid2.N, cond2_1 (grid2.coords t) ↔ t.val % 5 = 0)
abbrev cond2_2 (i : grid2.Coords) : Prop := k2_cond2 i = 1#1
theorem hcond2_2 : ∀ t : Fin cfg2.N, cond2_2 (grid2.coords t) ↔ t.val % 5 = 4 :=
  (by decide +kernel : ∀ t : Fin grid2.N, cond2_2 (grid2.coords t) ↔ t.val % 5 = 4)
theorem idleAt2_2 : ∀ t : Fin cfg2.N, ¬cond2_2 (grid2.coords t) → cfg2.idle 2 (grid2.coords t) = true :=
  (by decide +kernel : ∀ t : Fin grid2.N, ¬cond2_2 (grid2.coords t) → idle2 2 (grid2.coords t) = true)
theorem liveAt2_2 : ∀ t : Fin cfg2.N, cond2_2 (grid2.coords t) → cfg2.idle 2 (grid2.coords t) = false :=
  (by decide +kernel : ∀ t : Fin grid2.N, cond2_2 (grid2.coords t) → idle2 2 (grid2.coords t) = false)

-- A store through the whole block, made last, leaves its payload whatever was stored before.
theorem read_writes_unit2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons.mpr (.inl rfl), View.mem_set_unit_zero h inb y⟩).trans
    (View.canon_cons_unit_zero h inb w L)

set_option maxHeartbeats 1000000 in
-- The accumulator restarts from zeros where k = 0, gains A·X, and is copied to the output block where k = 4.
theorem sound_kernel2 (c : Dev nD) (E : Set ℕ) (i : grid2.Coords)
    (arg2 : Memref sig .tc .vmem S512x2048 .bf16) (harg2 : arg2.IsWhole) (arg3 : Memref sig .tc .vmem S2048x1280 .bf16) (harg3 : arg3.IsWhole)
    (arg4 : Memref sig .tc .vmem S512x1280 .f32) (harg4 : arg4.IsWhole) (arg5 : Memref sig .tc .vmem S512x1280 .f32) (harg5 : arg5.IsWhole)
    (x0 : Vec F S512x2048 .bf16) (x1 : Vec F S2048x1280 .bf16) (xo xs acc : Vec F S512x1280 .f32)
    (hacc : k2_pay2 (if cond2_1 i then k2_pay1 (F := F) else xs) x0 x1 = acc) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (if cond2_2 i then acc else xo) ∗ owns (c : Thread nD τ) arg5 fullShare acc) -∗ K ⟨⟩))
      ⊢ wp frame (wpE (defs₀ (F := F)) Variants.none c none) E (cc2__agg_kernel i arg2 harg2 arg3 harg3 arg4 harg4 arg5 harg5) K := by
  subst hacc
  simp only [cc2__agg_kernel_eq_skeleton]; unfold cc2__agg_kernel_skel owns
  iintro ⟨⟨%f2, %hf2, H2⟩, ⟨%f3, %hf3, H3⟩, ⟨%f4, %hf4, H4⟩, ⟨%f5, %hf5, H5⟩, Hk⟩
  subst hf2 hf3 hf4 hf5
  sl_exec
  sl_step
  iapply Hk
  isplitl [H2]
  on_goal 2 => isplitl [H3]
  on_goal 3 => isplitl [H4]
  all_goals
    iexists _; isplitr; swap
    · first | iexact H2 | iexact H3 | iexact H4 | iexact H5
    ipureintro
    first
    | rfl
    | sl_unfold_words
      by_cases hc1 : cond2_1 i <;> by_cases hc2 : cond2_2 i <;>
        (first | simp only [dif_neg hc1, if_neg hc1] | simp only [dif_pos hc1, if_pos hc1]) <;>
        (try first | simp only [dif_neg hc2, if_neg hc2] | simp only [dif_pos hc2, if_pos hc2]) <;>
        simp only [read_writes_unit2 (S := S512x1280) _ _ offz2, View.readCov_unit_zero (S := S512x1280) _ offz2, View.readAt_eq_ld,
          View.ld_unit_zero (S := S512x1280) offz2, View.ld_unit_zero (S := S512x2048) offz2, View.ld_unit_zero (S := S2048x1280) offz2]

def acc2 (c : Dev nD) : (n : ℕ) → n < cfg2.N → Vec F S512x1280 .f32
  | 0, h => k2_pay2 (k2_pay1 (F := F)) (iblk2 V c 0 ⟨0, h⟩) (iblk2 V c 1 ⟨0, h⟩)
  | n + 1, h => k2_pay2 (if (n + 1) % 5 = 0 then k2_pay1 (F := F) else acc2 c n (Nat.lt_of_succ_lt h))
      (iblk2 V c 0 ⟨n + 1, h⟩) (iblk2 V c 1 ⟨n + 1, h⟩)
theorem acc2_first (c : Dev nD) (n : ℕ) (h : n < cfg2.N) (h5 : n % 5 = 0) :
    acc2 V c n h = k2_pay2 (k2_pay1 (F := F)) (iblk2 V c 0 ⟨n, h⟩) (iblk2 V c 1 ⟨n, h⟩) := by
  cases n with
  | zero => rfl
  | succ n => rw [acc2, if_pos h5]
theorem acc2_next (c : Dev nD) (n : ℕ) (h : n < cfg2.N) (h5 : n % 5 ≠ 0) :
    acc2 V c n h = k2_pay2 (acc2 V c (n - 1) (Nat.lt_of_le_of_lt (Nat.sub_le _ _) h)) (iblk2 V c 0 ⟨n, h⟩) (iblk2 V c 1 ⟨n, h⟩) := by
  cases n with
  | zero => exact absurd (Nat.zero_mod 5) h5
  | succ n => rw [acc2, if_neg h5]; rfl
-- What the body leaves in the accumulator at point t, if it found there what the point before left.
theorem acc2_step (c : Dev nD) (t : Fin cfg2.N) (a : Vec F S512x1280 .f32) (ha : ∀ m h, t.val = m + 1 → a = acc2 V c m h) :
    k2_pay2 (if cond2_1 (grid2.coords t) then k2_pay1 (F := F) else a) (iblk2 V c 0 t) (iblk2 V c 1 t) = acc2 V c t.val t.isLt := by
  by_cases h0 : t.val % 5 = 0
  · rw [if_pos ((hcond2_1 t).mpr h0), acc2_first V c _ _ h0]
  · rw [if_neg (mt (hcond2_1 t).mp h0), acc2_next V c _ _ h0, ← ha (t.val - 1) _ (by omega)]

abbrev scM2 : Memref sig .tc .vmem S512x1280 .f32 := Memref.whole cc2_scratch0

-- Before point n the accumulator holds what point n - 1 left; before the first point, anything.
def Phi2 (c : Dev nD) (n : ℕ) : sProp 𝕄 :=
  iprop(∃ d : Vec F S512x1280 .f32, ⌜∀ m h, n = m + 1 → d = acc2 V c m h⌝ ∗ owns (c : Thread nD τ) scM2 fullShare d
    ∗ Pipeline.scopedRestBut (Ix := Unit) (Name := ℕ) (U := UR sig nD τ) (Lvl := ℕ) (Val := Elt F) spec2 c [cc2_scratch0]
    ∗ (∃ r, prngReg c r))

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  (dat2 V c).before_fetched 0 t (fetch2_0 t) d
theorem before2_1 (c : Dev nD) (t : Fin cfg2.N) (d) : (dat2 V c).before 1 t d = iblk2 V c 1 t :=
  (dat2 V c).before_fetched 1 t (fetch2_1 t) d

-- The output block holds the accumulator where k = 4 and is handed back as found elsewhere.
theorem leaves2_2 (c : Dev nD) (t : Fin cfg2.N) (d) :
    owns (c : Thread nD τ) (st2_2 t) fullShare (if cond2_2 (grid2.coords t) then acc2 V c t.val t.isLt else (dat2 V c).before 2 t d)
      ⊢ (dat2 V c).leavesExact 2 t := by
  by_cases h : cond2_2 (grid2.coords t)
  · rw [if_pos h]; unfold Dat.leavesExact; rw [liveAt2_2 t h]; iintro H; iexact H
  · rw [if_neg h, Dat.leavesExact_idle _ 2 t (idleAt2_2 t h)
      (Bool.eq_false_iff.mpr fun hf => h ((hcond2_2 t).mpr ((flush2_2 t).mp hf)))]; iintro H; iexists d; iexact H

theorem sound_body2 (c : Dev nD) (t : Fin cfg2.N) :
    iprop(Phi2 V c t.val ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) fun _ =>
      iprop(Phi2 V c (t.val + 1) ∗ (dat2 V c).owesAt () t.castSucc
        ∗ owns (c : Thread nD τ) (st2_0 t) fullShare (iblk2 V c 0 t) ∗ owns (c : Thread nD τ) (st2_1 t) fullShare (iblk2 V c 1 t)
        ∗ (dat2 V c).leavesExact 2 t) := by
  simp only [before2_0, before2_1]; unfold Phi2 bodyAt2
  iintro ⟨⟨%a, %ha, HS, HR⟩, Ho, ⟨%d0, H0⟩, ⟨%d1, H1⟩, ⟨%d2, H2⟩⟩
  iapply (sound_kernel2 c Set.univ (grid2.coords t) _ _ _ _ _ _ _ _ (iblk2 V c 0 t) (iblk2 V c 1 t) _ a _ (acc2_step V c t a ha) _)
  iframe H0 H1 H2 HS
  iintro ⟨H0, H1, H2, HS⟩
  iframe Ho H0 H1
  isplitr [H2]
  · iexists (acc2 V c t.val t.isLt); iframe; ipureintro; exact fun m h e => by obtain rfl := Nat.add_right_cancel e; rfl
  iapply (leaves2_2 V c t d2); iexact H2

theorem body_obligation2 (c : Dev nD) : BodyObligation (dat2 (F := F) V c) (defs₀ (F := F)) Variants.none () Set.univ := fun t => by
  rw [bigSep_W2, bigSep_W2]
  exact sound_body2 V c t

theorem PhiIn2 (c : Dev nD) : Pipeline.ΦA spec2 c ⊢ (dat2 V c).Φ 0 := by
  rw [PhiA2_eq]; show _ ⊢ Phi2 V c 0; unfold Phi2
  iintro ⟨⟨⟨%d, HS⟩, HR⟩, Hg⟩
  iexists d; iframe; ipureintro; exact fun m h e => by omega

theorem PhiOut2 (c : Dev nD) : (dat2 V c).Φ (Fin.last cfg2.N) ⊢ Pipeline.ΦA spec2 c := by
  rw [PhiA2_eq]; show Phi2 V c _ ⊢ _; unfold Phi2
  iintro ⟨%d, -, HS, HR, Hg⟩
  iframe HR Hg; iexists d; iexact HS

end Cert.Kernel.Hand

end
-- ==== Proof.K.Reg3.lean ====
import proofs.«425851_j42021960024258_2_alg».proof.Proof.Gen.Kernel.Launch
import proofs.«425851_j42021960024258_2_alg».proof.Proof.Gen.Kernel.Skeleton
import proofs.«425851_j42021960024258_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem zero_off3 : (![0, 0] : Fin 2 → Nat) = fun _ => 0 := funext fun a => by fin_cases a <;> rfl

-- The body reads its four input blocks whole and overwrites the whole output block with their payload.
set_option maxHeartbeats 1000000 in
theorem sound_kernel3 (c : Dev nD) (E : Set ℕ) (i : grid3.Coords)
    (arg1 : Memref sig .tc .vmem S512x1280 .f32) (harg1 : arg1.IsWhole) (arg2 : Memref sig .tc .vmem S512x1280 .f32) (harg2 : arg2.IsWhole)
    (arg3 : Memref sig .tc .vmem S1280x1280 .bf16) (harg3 : arg3.IsWhole) (arg4 : Memref sig .tc .vmem S1x1280 .f32) (harg4 : arg4.IsWhole)
    (arg5 : Memref sig .tc .vmem S512x1280 .f32) (harg5 : arg5.IsWhole) {D0 D1 D2 D3 D4 : Type}
    {X0 : D0 → Vec F S512x1280 .f32} {x0} (h0 : ∀ d, X0 d = x0) {X1 : D1 → Vec F S512x1280 .f32} {x1} (h1 : ∀ d, X1 d = x1)
    {X2 : D2 → Vec F S1280x1280 .bf16} {x2} (h2 : ∀ d, X2 d = x2) {X3 : D3 → Vec F S1x1280 .f32} {x3} (h3 : ∀ d, X3 d = x3)
    {X4 : D4 → Vec F S512x1280 .f32} (R S : sProp 𝕄) :
    iprop(R ∗ S ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d))
        ∗ ∃ d, owns (c : Thread nD τ) arg5 fullShare (X4 d))
      ⊢ wp frame (wpE (defs₀ (F := F)) Variants.none c none) E
          (cc3__linear_kernel i arg1 harg1 arg2 harg2 arg3 harg3 arg4 harg4 arg5 harg5) fun _ =>
          iprop(R ∗ S ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k3_pay1 x0 x1 x2 x3)) := by
  simp only [cc3__linear_kernel_eq_skeleton]; unfold cc3__linear_kernel_skel owns
  iintro ⟨HR, HS, ⟨%d0, %f0, %hf0, H0⟩, ⟨%d1, %f1, %hf1, H1⟩, ⟨%d2, %f2, %hf2, H2⟩, ⟨%d3, %f3, %hf3, H3⟩, ⟨%d4, %f4, -, H4⟩⟩
  obtain rfl := hf0.trans (h0 _); obtain rfl := hf1.trans (h1 _); obtain rfl := hf2.trans (h2 _); obtain rfl := hf3.trans (h3 _)
  sl_exec
  sl_step
  isplitl [HR]; · iexact HR
  isplitl [HS]; · iexact HS
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ fun y => ⟨_, List.mem_singleton_self _, View.mem_set_unit_zero zero_off3 inb_S512x1280_S512x1280_0_0 y⟩,
    View.canon_unit_zero zero_off3]
  congr 1 <;> exact View.ld_unit_zero zero_off3 _ _

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay1 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = k3_pay1 (iblk3 V c 0 t) (iblk3 V c 1 t) (iblk3 V c 2 t) (iblk3 V c 3 t) := rfl

-- The body leaves every input block as it found it.
theorem before3 (c : Dev nD) (w : Fin cfg3.W) (hw : w ≠ 4) (t : Fin cfg3.N) (d) : (dat3 V c).before w t d = (dat3 V c).after w t := by
  fin_cases w <;> first
    | exact absurd rfl hw
    | exact ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  show _ ⊢ wp _ _ _ (bodyAt3 t) _
  exact sound_kernel3 c _ _ _ _ _ _ _ _ _ _ _ _ (before3 V c 0 (by decide) t) (before3 V c 1 (by decide) t)
    (before3 V c 2 (by decide) t) (before3 V c 3 (by decide) t) _ _

theorem PhiIn3 (c : Dev nD) : Pipeline.ΦA spec3 c ⊢ (dat3 V c).Φ 0 := .rfl

theorem PhiOut3 (c : Dev nD) : (dat3 V c).Φ (Fin.last cfg3.N) ⊢ Pipeline.ΦA spec3 c := .rfl

end Cert.Kernel.Hand

end
-- ==== Proof.K.Reg4.lean ====
import proofs.«425851_j42021960024258_2_alg».proof.Proof.Gen.Kernel.Launch
import proofs.«425851_j42021960024258_2_alg».proof.Proof.Gen.Kernel.Skeleton
import proofs.«425851_j42021960024258_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
abbrev cond4_1 (i : grid4.Coords) : Prop := k4_cond2 i = 1#1

theorem hcond4_0 : ∀ t : Fin cfg4.N, cond4_0 (grid4.coords t) ↔ t.val = 0 := by decide +kernel
theorem excl4 : ∀ t : Fin cfg4.N, cond4_0 (grid4.coords t) → ¬cond4_1 (grid4.coords t) := by decide +kernel
theorem idle4_2 : ∀ t : Fin cfg4.N, ¬cond4_1 (grid4.coords t) → cfg4.idle 2 (grid4.coords t) = true ∧ (cfg4.win 2).flush t = false := by
  decide +kernel
theorem live4_2 : ∀ t : Fin cfg4.N, cond4_1 (grid4.coords t) → cfg4.idle 2 (grid4.coords t) = false := by decide +kernel

theorem zeroOff4 : (![0, 0] : Fin 2 → Nat) = fun _ => 0 := by funext a; fin_cases a <;> rfl

abbrev scM4 : Memref sig .tc .vmem S1x1280 .f32 := Memref.whole cc4_scratch0

-- The newest piece covers every index.
theorem read_writes_row4 (v : View sig .tc .vmem S1x1280 .f32) (f : v.ty.Contents (Elt F)) (w : Vec F S1x1280 .f32)
    (L : List (View.Piece (Elt F) S1x1280 .f32)) :
    v.read (Elt F) (v.writes (Elt F) f
      ((⟨Rect.unit (s := S1x1280) ![0, 0] S1x1280.size inb_S1x1280_S1x1280_0_0, w⟩ : View.Piece (Elt F) S1x1280 .f32) :: L)) = w := by
  rw [View.read_writes_eq_canon v f _ (fun y =>
    ⟨(⟨Rect.unit (s := S1x1280) ![0, 0] S1x1280.size inb_S1x1280_S1x1280_0_0, w⟩ : View.Piece (Elt F) S1x1280 .f32),
      List.mem_cons_self .., View.mem_set_unit_zero zeroOff4 inb_S1x1280_S1x1280_0_0 y⟩)]
  exact View.canon_cons_unit_zero zeroOff4 inb_S1x1280_S1x1280_0_0 w L

-- The whole-shape rectangle at zero offsets embeds as the identity.
theorem readAt4 {S : Shape} (v : View sig .tc .vmem S .f32) (f : v.ty.Contents (Elt F)) {off : Fin S.rank → ℕ} (h : off = fun _ => 0) (inb) :
    View.readAt (Elt F) v (Rect.unit off S.size inb).toLoadRect f = v.read (Elt F) f := by
  rw [View.readAt_eq_ld]; exact View.ld_unit_zero h inb _

set_option maxHeartbeats 1000000 in
-- One step of the pooling: the row, zero where the first condition holds, gains the blocks' column sums; where the second holds the output is that row scaled.
theorem sound_kernel4 (c : Dev nD) (E : Set ℕ) (i : grid4.Coords)
    (arg1 : Memref sig .tc .vmem S1000x1280 .f32) (harg1 : arg1.IsWhole) (arg2 : Memref sig .tc .vmem S1000x1280 .f32) (harg2 : arg2.IsWhole)
    (arg3 : Memref sig .tc .vmem S1x1280 .f32) (harg3 : arg3.IsWhole) (arg4 : Memref sig .tc .vmem S1x1280 .f32) (harg4 : arg4.IsWhole)
    (hex : cond4_0 i → ¬cond4_1 i) (x0 x1 : Vec F S1000x1280 .f32) (d xs : Vec F S1x1280 .f32) (K : PUnit → sProp 𝕄) :
    iprop(owns (c : Thread nD τ) arg1 fullShare x0 ∗ owns (c : Thread nD τ) arg2 fullShare x1 ∗ owns (c : Thread nD τ) arg3 fullShare d
        ∗ owns (c : Thread nD τ) arg4 fullShare xs
        ∗ (iprop(owns (c : Thread nD τ) arg1 fullShare x0 ∗ owns (c : Thread nD τ) arg2 fullShare x1
             ∗ owns (c : Thread nD τ) arg3 fullShare (if cond4_1 i then k4_pay3 (k4_pay2 (if cond4_0 i then k4_pay1 else xs) x0 x1) else d)
             ∗ owns (c : Thread nD τ) arg4 fullShare (k4_pay2 (if cond4_0 i then k4_pay1 else xs) x0 x1)) -∗ K ⟨⟩))
      ⊢ wp frame (wpE (defs₀ (F := F)) Variants.none c none) E (cc4__mean_pool_kernel i arg1 harg1 arg2 harg2 arg3 harg3 arg4 harg4) K := by
  by_cases hc0 : cond4_0 i <;> by_cases hc1 : cond4_1 i
  · exact absurd hc1 (hex hc0)
  all_goals
    first | rw [if_pos hc1] | rw [if_neg hc1]
    first | rw [if_pos hc0] | rw [if_neg hc0]
    simp only [cc4__mean_pool_kernel_eq_skeleton]; unfold cc4__mean_pool_kernel_skel owns
    iintro ⟨⟨%f0, %hf0, H0⟩, ⟨%f1, %hf1, H1⟩, ⟨%f3, %hf3, H3⟩, ⟨%f4, %hf4, H4⟩, Hk⟩
    subst hf0 hf1 hf3 hf4
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H3]
    · iexists _; isplitr
      swap; · iexact H3
      ipureintro
      sl_unfold_run_names
      first | rw [read_writes_row4, View.readCov_unit_zero (S := S1x1280) _ zeroOff4, readAt4 (S := S1x1280) _ _ zeroOff4,
        readAt4 (S := S1000x1280) _ _ zeroOff4, readAt4 (S := S1000x1280) _ _ zeroOff4] | rfl
    iexists _; isplitr
    swap; · iexact H4
    ipureintro
    sl_unfold_run_names
    rw [read_writes_row4, readAt4 (S := S1000x1280) _ _ zeroOff4, readAt4 (S := S1000x1280) _ _ zeroOff4]
    first | rw [View.readCov_unit_zero (S := S1x1280) _ zeroOff4] | rw [readAt4 (S := S1x1280) _ _ zeroOff4]

def acc4 (c : Dev nD) : (n : ℕ) → n < cfg4.N → Vec F S1x1280 .f32
  | 0, h => k4_pay2 (k4_pay1 (F := F)) (iblk4 V c 0 ⟨0, h⟩) (iblk4 V c 1 ⟨0, h⟩)
  | n + 1, h => k4_pay2 (acc4 c n (Nat.lt_of_succ_lt h)) (iblk4 V c 0 ⟨n + 1, h⟩) (iblk4 V c 1 ⟨n + 1, h⟩)

theorem acc4_zero (c : Dev nD) (h : 0 < cfg4.N) :
    acc4 V c 0 h = k4_pay2 (k4_pay1 (F := F)) (iblk4 V c 0 ⟨0, h⟩) (iblk4 V c 1 ⟨0, h⟩) := rfl

theorem acc4_succ (c : Dev nD) (n : ℕ) (h : n + 1 < cfg4.N) :
    acc4 V c (n + 1) h = k4_pay2 (acc4 V c n (Nat.lt_of_succ_lt h)) (iblk4 V c 0 ⟨n + 1, h⟩) (iblk4 V c 1 ⟨n + 1, h⟩) := rfl

-- One step of the recursion, over the point: the first point starts from the zero row, a later one from the row before.
theorem acc4_step (c : Dev nD) (t : Fin cfg4.N) (xs : Vec F S1x1280 .f32) (hxs : ∀ h, t.val ≠ 0 → xs = acc4 V c (t.val - 1) h) :
    k4_pay2 (if cond4_0 (grid4.coords t) then k4_pay1 else xs) (iblk4 V c 0 t) (iblk4 V c 1 t) = acc4 V c t.val t.isLt := by
  obtain ⟨n, hn⟩ := t
  cases n with
  | zero => rw [if_pos ((hcond4_0 _).mpr rfl)]; rfl
  | succ n => rw [if_neg fun h => Nat.succ_ne_zero n ((hcond4_0 _).mp h), hxs (Nat.lt_of_succ_lt hn) (Nat.succ_ne_zero n)]; rfl

-- Before position `n` the carried row is the partial sum over the points before it (anything when there is none).
def Phi4 (c : Dev nD) (n : ℕ) : sProp 𝕄 :=
  iprop(iprop((∃ xs, ⌜∀ h, n ≠ 0 → xs = acc4 V c (n - 1) h⌝ ∗ owns (c : Thread nD τ) scM4 fullShare xs)
    ∗ Pipeline.scopedRestBut spec4 c [cc4_scratch0]) ∗ (∃ r, prngReg c r))

theorem PhiA4_eq (c : Dev nD) :
    (Pipeline.ΦA spec4 c : sProp 𝕄)
      = iprop(iprop((∃ d, owns (c : Thread nD τ) scM4 fullShare d) ∗ Pipeline.scopedRestBut spec4 c [cc4_scratch0]) ∗ (∃ r, prngReg c r)) := by
  unfold Pipeline.ΦA; rw [scopedRest4_split]; simp only [scM4, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val t.isLt)
  Φ t := Phi4 V c t.val
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = k4_pay3 (acc4 V c t.val t.isLt) := rfl

-- The body leaves both inputs' blocks as it finds them.
theorem before4 (c : Dev nD) (t : Fin cfg4.N) :
    (∀ d, (dat4 V c).before 0 t d = iblk4 V c 0 t) ∧ (∀ d, (dat4 V c).before 1 t d = iblk4 V c 1 t) := by
  constructor <;> exact Dat.before_in_eq_fetched _ _ rfl (fun _ => rfl) (fun _ _ _ => rfl) (fun _ => rfl) t

-- The two cases of the output's postcondition, by the second condition.
theorem leaves4_2 (c : Dev nD) (t : Fin cfg4.N) (d) (r : Vec F S1x1280 .f32) (hr : r = acc4 V c t.val t.isLt) :
    owns (c : Thread nD τ) (st4_2 t) fullShare (if cond4_1 (grid4.coords t) then k4_pay3 r else (dat4 V c).before 2 t d)
      ⊢ (dat4 V c).leavesExact 2 t := by
  subst hr
  by_cases h : cond4_1 (grid4.coords t)
  · rw [if_pos h]; unfold Dat.leavesExact; rw [live4_2 t h]; exact .rfl
  · rw [if_neg h, Dat.leavesExact_idle _ 2 t (idle4_2 t h).1 (idle4_2 t h).2]
    iintro H; iexists d; iexact H

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare (iblk4 V c 0 t)
        ∗ owns (c : Thread nD τ) (st4_1 t) fullShare (iblk4 V c 1 t)
        ∗ (dat4 V c).leavesExact 2 t)) := by
  unfold bodyAt4
  simp only [(before4 V c t).1, (before4 V c t).2]
  rw [show (dat4 V c).owesAt () t.succ = (dat4 V c).owesAt () t.castSucc from rfl,
    show (dat4 V c).Φ t.castSucc = Phi4 V c t.val from rfl, show (dat4 V c).Φ t.succ = Phi4 V c (t.val + 1) from rfl]
  unfold Phi4
  iintro ⟨⟨⟨⟨%xs, %hxs, HS⟩, HR⟩, Hg⟩, Ho, ⟨%d0, H0⟩, ⟨%d1, H1⟩, ⟨%d2, H2⟩⟩
  have hr := acc4_step V c t xs hxs
  iapply (sound_kernel4 c Set.univ (grid4.coords t) _ _ _ _ _ _ _ _ (excl4 t) (iblk4 V c 0 t) (iblk4 V c 1 t) ((dat4 V c).before 2 t d2) xs _)
  iframe H0 H1 H2 HS
  iintro ⟨H0, H1, H2, HS⟩
  iframe HR Hg Ho H0 H1
  isplitl [HS]
  · iexists _; isplitr
    · ipureintro; exact fun _ _ => hr
    iexact HS
  iapply (leaves4_2 V c t d2 _ hr); iexact H2

theorem body_obligation4 (c : Dev nD) : BodyObligation (dat4 (F := F) V c) (defs₀ (F := F)) Variants.none () Set.univ := fun t => by
  rw [bigSep_W4, bigSep_W4]
  exact sound_body4 V c t

theorem PhiIn4 (c : Dev nD) : Pipeline.ΦA spec4 c ⊢ (dat4 V c).Φ 0 := by
  rw [PhiA4_eq, show (dat4 V c).Φ 0 = Phi4 V c 0 from rfl]; unfold Phi4
  iintro ⟨⟨⟨%d, HS⟩, HR⟩, Hg⟩
  iframe HR Hg
  iexists d; isplitr
  · ipureintro; exact fun _ h => absurd rfl h
  iexact HS

theorem PhiOut4 (c : Dev nD) : (dat4 V c).Φ (Fin.last cfg4.N) ⊢ Pipeline.ΦA spec4 c := by
  rw [PhiA4_eq, show (dat4 V c).Φ (Fin.last cfg4.N) = Phi4 V c cfg4.N from rfl]; unfold Phi4
  iintro ⟨⟨⟨%xs, -, HS⟩, HR⟩, Hg⟩
  iframe HR Hg
  iexists xs; iexact HS

end Cert.Kernel.Hand

end
-- ==== Proof.K.Fold.lean ====
import proofs.«425851_j42021960024258_2_alg».proof.Proof.K.Reg0
import proofs.«425851_j42021960024258_2_alg».proof.Proof.K.Reg1
import proofs.«425851_j42021960024258_2_alg».proof.Proof.K.Reg2
import proofs.«425851_j42021960024258_2_alg».proof.Proof.K.Reg3
import proofs.«425851_j42021960024258_2_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe

variable {F : FTy → Type} [FloatOps F]

abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb
abbrev V5 : (c : Dev nD) → (b : Ref sig .tc) → Buf (Elt F) ((c : Thread nD τ).loc b) := fun c b => W5 m ρ c b

abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) :=
  Pipeline.withArrays_of_ne spec2 c _ _ b hb
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
abbrev V8 : (c : Dev nD) → (b : Ref sig .tc) → Buf (Elt F) ((c : Thread nD τ).loc b) := fun c b => W8 m ρ c b

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb
abbrev V10 : (c : Dev nD) → (b : Ref sig .tc) → Buf (Elt F) ((c : Thread nD τ).loc b) := fun c b => W10 m ρ c b

end Cert.Kernel.Hand

end
-- ==== Proof.K.Run.lean ====
import proofs.«425851_j42021960024258_2_alg».proof.Proof.Gen.Kernel.Regions
import proofs.«425851_j42021960024258_2_alg».proof.Proof.K.Fold
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open Idealize.SL.BI.BIBase Idealize.SL.BI.Laws Idealize.SL.ProofMode
open Idealize.ShloMosaic.Rounds
open Idealize.ShloMosaic.Pipeline (Dat BodyObligation)

variable {F : FTy → Type} [FloatOps F]

local notation "𝕄" => MT nD τ sig Unit (Elt F) ℕ (UR sig nD τ) ℕ

theorem owes_point {cfg : Pipeline.Cfg sig Λ₀} {c : Dev nD} (dat : Dat τ (Elt F) Unit ℕ (UR sig nD τ) ℕ cfg c)
    (t : Fin (cfg.N + 1)) (h0 : dat.owed t = 0) (hr : dat.recorded t = Set.univ) :
    (dat.owesAt () t : sProp 𝕄) = iprop(∃ W, owes (c : Thread nD τ) (0 : CellTallies nD τ sig Unit) W) := by
  unfold Pipeline.Dat.owesAt Pipeline.owesWithin Pipeline.Dat.bound
  rw [h0, hr]
  refine Entails.antisymm ?_ ?_ <;> change (_ : sProp 𝕄) ⊢ _
  · iintro ⟨%W, -, HO⟩; iexists W; iexact HO
  iintro ⟨%W, HO⟩; iexists W; isplitr
  · ipureintro; exact fun _ _ => Or.inl trivial
  iexact HO

variable (m : (ℓ : Loc nD τ sig) → Buf (Elt F) ℓ) (ρ : Dev nD → PrngReg)

def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R

-- A region entered at the contents W of the unscoped buffers leaves them at W with its arrays at their final contents.
set_option backward.isDefEq.respectTransparency.types false in
def reg {p : Fin 5} (lf : Pipeline.LaunchFacts (nD := nD) (τ := τ) cfgs p) (W : Dev nD → Valuation τ sig (Elt F))
    (hq : ∀ c w, (pdats m ρ p c).q w = fullShare) (h0 : ∀ c t, (pdats m ρ p c).owed t = 0)
    (hr : ∀ c t, (pdats m ρ p c).recorded t = Set.univ)
    (hA : ∀ c w, (pdats m ρ p c).A w = W c (Pipeline.arrRef (cfgs p).spec w))
    (hb : ∀ c, BodyObligation (pdats m ρ p c) defs₀ 𝒱₀ () Set.univ)
    (hi : ∀ c, Pipeline.ΦA (cfgs p).spec c ⊢ (pdats m ρ p c).Φ 0)
    (ho : ∀ c, (pdats m ρ p c).Φ (Fin.last (cfgs p).N) ⊢ Pipeline.ΦA (cfgs p).spec c) :
    Pipeline.RegionSeg pcfgs adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (W c) ∗ R c)
  post c := iprop(StableHlo.held (c : Thread nD τ) (Pipeline.ucRefs τ sig)
    (Pipeline.withArrays (cfgs p).spec c (W c) fun w => (pdats m ρ p c).arrAt w (cfgs p).N) ∗ R c)
  X c := iprop(∃ r, prngReg c r)
  Y c := iprop(∃ r, prngReg c r)
  Z c := Pipeline.unscopedRest (cfgs p).spec c (fun b => W c b)
  hentry c := by
    have hsplit := Pipeline.arrays_of_unscopedBufs (p := p) pcfgs adm (pdats m ρ) lf.win lf.arr_whole c
      ((pdats m ρ p c).share_full (hq c)) (fun b => W c b) (hA c)
    rw [Pipeline.unscopedBufs_held] at hsplit
    rw [owes_point _ 0 (h0 c 0) (hr c 0)]
    iintro ⟨⟨Hub, Hp, HO⟩, -⟩
    ihave H := hsplit $$ Hub
    icases H with ⟨Ha, Hrest⟩
    imodintro
    iframe
    unfold Pipeline.prefHeld; rw [show (Finset.univ : Finset (Fin 0)) = ∅ from rfl, BI.bigSep_empty]; iempintro
  hin c := ((sep_mono_r ((sep_mono_l affine).trans emp_sep_elim)).trans sep_comm).trans (hi c)
  hout c := by
    rw [Pipeline.ownSems0_none]
    exact (ho c).trans (sep_comm.trans (sep_mono_r emp_sep_intro))
  hexit c := by
    have hjoin := Pipeline.unscopedBufs_of_arrays (p := p) pcfgs adm
      lf.win lf.arr_whole c (pdats m ρ) ((pdats m ρ p c).share_full (hq c))
      (fun b => W c b) (fun b => Pipeline.withArrays (cfgs p).spec c (W c) (fun w => (pdats m ρ p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    rw [owes_point _ _ (h0 c _) (hr c _)]
    iintro ⟨Ha, HO, HY, Hrest⟩
    imodintro
    isplitl [Ha Hrest]
    · iapply hjoin; iframe
    isplitl [HY] <;> iassumption

set_option backward.isDefEq.respectTransparency.types false in
abbrev segs : List (Pipeline.Seg pcfgs adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg m ρ launch0 (W3 m ρ) (fun _ _ => rfl) (fun _ _ => rfl) (fun _ _ => rfl) (A_eq0 _) (body_obligation0 _) (PhiIn0 _) (PhiOut0 _)),
    .region (reg m ρ launch1 (W4 m ρ) (fun _ _ => rfl) (fun _ _ => rfl) (fun _ _ => rfl) (A_eq1 _) (body_obligation1 _) (PhiIn1 _) (PhiOut1 _)),
    .host (hseg hostOps2 hostOps2_sub hostOps2_fresh (W5 m ρ)),
    .region (reg m ρ launch2 (W6 m ρ) (fun _ _ => rfl) (fun _ _ => rfl) (fun _ _ => rfl) (A_eq2 _) (body_obligation2 _) (PhiIn2 _) (PhiOut2 _)),
    .region (reg m ρ launch3 (W7 m ρ) (fun _ _ => rfl) (fun _ _ => rfl) (fun _ _ => rfl) (A_eq3 _) (body_obligation3 _) (PhiIn3 _) (PhiOut3 _)),
    .host (hseg hostOps4 hostOps4_sub hostOps4_fresh (W8 m ρ)),
    .region (reg m ρ launch4 (W9 m ρ) (fun _ _ => rfl) (fun _ _ => rfl) (fun _ _ => rfl) (A_eq4 _) (body_obligation4 _) (PhiIn4 _) (PhiOut4 _)) ]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit pcfgs adm (pdats m ρ) () cellOf_inj emb₁ defs₀ 𝒱₀ L lv m ρ main (segs m ρ)
    (fun c _ => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W10 m ρ c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c _ = _ from Pipeline.unscopedBufs_held c (W0 m ρ c)]
      iintro ⟨⟨Hh, -, HO, -, Hp, -⟩, -⟩
      imodintro
      iframe
      isplitl [Hp] <;> iexists _ <;> iassumption)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

end Cert.Kernel.Hand

end
-- ==== Proof.K.Keep.lean ====
import proofs.«425851_j42021960024258_2_alg».proof.Proof.K.Fold
import proofs.«425851_j42021960024258_2_alg».proof.Proof.Gen.Kernel.Regions
import Idealize.ShloMosaic.Lib.StableHlo.RunLoop

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (ρ : Dev nD → PrngReg)

theorem W9_keep (c : Dev nD) (r : Ref sig .tc) (h1 : r ∉ hostOps0_W := by decide) (h2 : r ∉ hostOps0_1_W := by decide)
    (h3 : r ∉ hostOps0_2_W := by decide) (h4 : ∀ w, Pipeline.arrRef spec0 w ≠ r := by decide)
    (h5 : ∀ w, Pipeline.arrRef spec1 w ≠ r := by decide) (h6 : r ∉ hostOps2_W := by decide)
    (h7 : ∀ w, Pipeline.arrRef spec2 w ≠ r := by decide) (h8 : ∀ w, Pipeline.arrRef spec3 w ≠ r := by decide)
    (h9 : r ∉ hostOps4_W := by decide) : W9 m ρ c (Proc.devRef .tc r) = m ((c : Thread nD τ).loc r) :=
  (StableHlo.after_of_writes_sub hostOps4 _ hostOps4_writes h9).trans <| (W8_of_ne m ρ c r h8).trans <|
  (W7_of_ne m ρ c r h7).trans <| (StableHlo.after_of_writes_sub hostOps2 _ hostOps2_writes h6).trans <|
  (W5_of_ne m ρ c r h5).trans <| (W4_of_ne m ρ c r h4).trans <| (V3_of m c r h3).trans <| (V2_of m c r h2).trans (V1_of m c r h1)

theorem W10_main_arg0 (c : Dev nD) : W10 m ρ c (Proc.devRef .tc main_arg0) = m ((c : Thread nD τ).loc main_arg0) :=
  (W10_arr m ρ c 1).trans <| ((dat4 (V9 m ρ) c).arrAt_in 1 rfl _).trans <| (A_eq4 (V9 m ρ) c 1).trans (W9_keep m ρ c _)
theorem W10_main_arg1 (c : Dev nD) : W10 m ρ c (Proc.devRef .tc main_arg1) = m ((c : Thread nD τ).loc main_arg1) :=
  (W10_of_ne m ρ c _ (by decide)).trans (W9_keep m ρ c _)
theorem W10_main_arg2 (c : Dev nD) : W10 m ρ c (Proc.devRef .tc main_arg2) = m ((c : Thread nD τ).loc main_arg2) :=
  (W10_of_ne m ρ c _ (by decide)).trans (W9_keep m ρ c _)
theorem W10_main_arg3 (c : Dev nD) : W10 m ρ c (Proc.devRef .tc main_arg3) = m ((c : Thread nD τ).loc main_arg3) :=
  (W10_of_ne m ρ c _ (by decide)).trans (W9_keep m ρ c _)
theorem W10_main_arg4 (c : Dev nD) : W10 m ρ c (Proc.devRef .tc main_arg4) = m ((c : Thread nD τ).loc main_arg4) :=
  (W10_of_ne m ρ c _ (by decide)).trans (W9_keep m ρ c _)
theorem W10_main_arg5 (c : Dev nD) : W10 m ρ c (Proc.devRef .tc main_arg5) = m ((c : Thread nD τ).loc main_arg5) :=
  (W10_of_ne m ρ c _ (by decide)).trans (W9_keep m ρ c _)
theorem W10_main_arg6 (c : Dev nD) : W10 m ρ c (Proc.devRef .tc main_arg6) = m ((c : Thread nD τ).loc main_arg6) :=
  (W10_of_ne m ρ c _ (by decide)).trans (W9_keep m ρ c _)

end Cert.Kernel.Hand

end
-- ==== Proof.K.Frame.lean ====
import proofs.«425851_j42021960024258_2_alg».proof.Proof.K.Run
import proofs.«425851_j42021960024258_2_alg».proof.Proof.K.Keep

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    have k := fun b hb => h c _ (StableHlo.devRef_mem_ucRefs (τ := τ) b hb)
    ⟨(k main_arg0 rfl).trans (W10_main_arg0 m ρ c), (k main_arg1 rfl).trans (W10_main_arg1 m ρ c),
     (k main_arg2 rfl).trans (W10_main_arg2 m ρ c), (k main_arg3 rfl).trans (W10_main_arg3 m ρ c),
     (k main_arg4 rfl).trans (W10_main_arg4 m ρ c), (k main_arg5 rfl).trans (W10_main_arg5 m ρ c),
     (k main_arg6 rfl).trans (W10_main_arg6 m ρ c)⟩) (run_all m ρ)

end Cert.Kernel.Hand

end
-- ==== Proof.KI.Reg0.lean ====
import proofs.«425851_j42021960024258_2_alg».proof.Proof.Gen.KernelIdeal.Launch
import proofs.«425851_j42021960024258_2_alg».proof.Proof.Gen.KernelIdeal.Skeleton
import proofs.«425851_j42021960024258_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem offz0 : (![0, 0] : Fin 2 → Nat) = fun _ => 0 := funext fun a => by fin_cases a <;> rfl
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 5 = 0 :=
  (by decide +kernel : ∀ t : Fin grid0.N, cond0_1 (grid0.coords t) ↔ t.val % 5 = 0)
abbrev cond0_2 (i : grid0.Coords) : Prop := k0_cond2 i = 1#1
theorem hcond0_2 : ∀ t : Fin cfg0.N, cond0_2 (grid0.coords t) ↔ t.val % 5 = 4 :=
  (by decide +kernel : ∀ t : Fin grid0.N, cond0_2 (grid0.coords t) ↔ t.val % 5 = 4)
theorem idleAt0_2 : ∀ t : Fin cfg0.N, ¬cond0_2 (grid0.coords t) → cfg0.idle 2 (grid0.coords t) = true :=
  (by decide +kernel : ∀ t : Fin grid0.N, ¬cond0_2 (grid0.coords t) → idle0 2 (grid0.coords t) = true)
theorem liveAt0_2 : ∀ t : Fin cfg0.N, cond0_2 (grid0.coords t) → cfg0.idle 2 (grid0.coords t) = false :=
  (by decide +kernel : ∀ t : Fin grid0.N, cond0_2 (grid0.coords t) → idle0 2 (grid0.coords t) = false)

-- A store through the whole block, made last, leaves its payload whatever was stored before.
theorem read_writes_unit0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons.mpr (.inl rfl), View.mem_set_unit_zero h inb y⟩).trans
    (View.canon_cons_unit_zero h inb w L)

set_option maxHeartbeats 1000000 in
-- The accumulator restarts from zeros where k = 0, gains A·X, and is copied to the output block where k = 4.
theorem sound_kernel0 (c : Dev nD) (E : Set ℕ) (i : grid0.Coords)
    (arg2 : Memref sig .tc .vmem S512x2048 .bf16) (harg2 : arg2.IsWhole) (arg3 : Memref sig .tc .vmem S2048x1280 .bf16) (harg3 : arg3.IsWhole)
    (arg4 : Memref sig .tc .vmem S512x1280 .f32) (harg4 : arg4.IsWhole) (arg5 : Memref sig .tc .vmem S512x1280 .f32) (harg5 : arg5.IsWhole)
    (x0 : Vec F S512x2048 .bf16) (x1 : Vec F S2048x1280 .bf16) (xo xs acc : Vec F S512x1280 .f32)
    (hacc : k0_pay2 (if cond0_1 i then k0_pay1 (F := F) else xs) x0 x1 = acc) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (if cond0_2 i then acc else xo) ∗ owns (c : Thread nD τ) arg5 fullShare acc) -∗ K ⟨⟩))
      ⊢ wp frame (wpE (defs₀ (F := F)) Variants.none c none) E (cc0__agg_kernel i arg2 harg2 arg3 harg3 arg4 harg4 arg5 harg5) K := by
  subst hacc
  simp only [cc0__agg_kernel_eq_skeleton]; unfold cc0__agg_kernel_skel owns
  iintro ⟨⟨%f2, %hf2, H2⟩, ⟨%f3, %hf3, H3⟩, ⟨%f4, %hf4, H4⟩, ⟨%f5, %hf5, H5⟩, Hk⟩
  subst hf2 hf3 hf4 hf5
  sl_exec
  sl_step
  iapply Hk
  isplitl [H2]
  on_goal 2 => isplitl [H3]
  on_goal 3 => isplitl [H4]
  all_goals
    iexists _; isplitr; swap
    · first | iexact H2 | iexact H3 | iexact H4 | iexact H5
    ipureintro
    first
    | rfl
    | sl_unfold_words
      by_cases hc1 : cond0_1 i <;> by_cases hc2 : cond0_2 i <;>
        (first | simp only [dif_neg hc1, if_neg hc1] | simp only [dif_pos hc1, if_pos hc1]) <;>
        (try first | simp only [dif_neg hc2, if_neg hc2] | simp only [dif_pos hc2, if_pos hc2]) <;>
        simp only [read_writes_unit0 (S := S512x1280) _ _ offz0, View.readCov_unit_zero (S := S512x1280) _ offz0, View.readAt_eq_ld,
          View.ld_unit_zero (S := S512x1280) offz0, View.ld_unit_zero (S := S512x2048) offz0, View.ld_unit_zero (S := S2048x1280) offz0]

def acc0 (c : Dev nD) : (n : ℕ) → n < cfg0.N → Vec F S512x1280 .f32
  | 0, h => k0_pay2 (k0_pay1 (F := F)) (iblk0 V c 0 ⟨0, h⟩) (iblk0 V c 1 ⟨0, h⟩)
  | n + 1, h => k0_pay2 (if (n + 1) % 5 = 0 then k0_pay1 (F := F) else acc0 c n (Nat.lt_of_succ_lt h))
      (iblk0 V c 0 ⟨n + 1, h⟩) (iblk0 V c 1 ⟨n + 1, h⟩)
theorem acc0_first (c : Dev nD) (n : ℕ) (h : n < cfg0.N) (h5 : n % 5 = 0) :
    acc0 V c n h = k0_pay2 (k0_pay1 (F := F)) (iblk0 V c 0 ⟨n, h⟩) (iblk0 V c 1 ⟨n, h⟩) := by
  cases n with
  | zero => rfl
  | succ n => rw [acc0, if_pos h5]
theorem acc0_next (c : Dev nD) (n : ℕ) (h : n < cfg0.N) (h5 : n % 5 ≠ 0) :
    acc0 V c n h = k0_pay2 (acc0 V c (n - 1) (Nat.lt_of_le_of_lt (Nat.sub_le _ _) h)) (iblk0 V c 0 ⟨n, h⟩) (iblk0 V c 1 ⟨n, h⟩) := by
  cases n with
  | zero => exact absurd (Nat.zero_mod 5) h5
  | succ n => rw [acc0, if_neg h5]; rfl
-- What the body leaves in the accumulator at point t, if it found there what the point before left.
theorem acc0_step (c : Dev nD) (t : Fin cfg0.N) (a : Vec F S512x1280 .f32) (ha : ∀ m h, t.val = m + 1 → a = acc0 V c m h) :
    k0_pay2 (if cond0_1 (grid0.coords t) then k0_pay1 (F := F) else a) (iblk0 V c 0 t) (iblk0 V c 1 t) = acc0 V c t.val t.isLt := by
  by_cases h0 : t.val % 5 = 0
  · rw [if_pos ((hcond0_1 t).mpr h0), acc0_first V c _ _ h0]
  · rw [if_neg (mt (hcond0_1 t).mp h0), acc0_next V c _ _ h0, ← ha (t.val - 1) _ (by omega)]

abbrev scM0 : Memref sig .tc .vmem S512x1280 .f32 := Memref.whole cc0_scratch0

-- Before point n the accumulator holds what point n - 1 left; before the first point, anything.
def Phi0 (c : Dev nD) (n : ℕ) : sProp 𝕄 :=
  iprop(∃ d : Vec F S512x1280 .f32, ⌜∀ m h, n = m + 1 → d = acc0 V c m h⌝ ∗ owns (c : Thread nD τ) scM0 fullShare d
    ∗ Pipeline.scopedRestBut (Ix := Unit) (Name := ℕ) (U := UR sig nD τ) (Lvl := ℕ) (Val := Elt F) spec0 c [cc0_scratch0]
    ∗ (∃ r, prngReg c r))

theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0, owns_whole]; try rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  (dat0 V c).before_fetched 0 t (fetch0_0 t) d
theorem before0_1 (c : Dev nD) (t : Fin cfg0.N) (d) : (dat0 V c).before 1 t d = iblk0 V c 1 t :=
  (dat0 V c).before_fetched 1 t (fetch0_1 t) d

-- The output block holds the accumulator where k = 4 and is handed back as found elsewhere.
theorem leaves0_2 (c : Dev nD) (t : Fin cfg0.N) (d) :
    owns (c : Thread nD τ) (st0_2 t) fullShare (if cond0_2 (grid0.coords t) then acc0 V c t.val t.isLt else (dat0 V c).before 2 t d)
      ⊢ (dat0 V c).leavesExact 2 t := by
  by_cases h : cond0_2 (grid0.coords t)
  · rw [if_pos h]; unfold Dat.leavesExact; rw [liveAt0_2 t h]; iintro H; iexact H
  · rw [if_neg h, Dat.leavesExact_idle _ 2 t (idleAt0_2 t h)
      (Bool.eq_false_iff.mpr fun hf => h ((hcond0_2 t).mpr ((flush0_2 t).mp hf)))]; iintro H; iexists d; iexact H

theorem sound_body0 (c : Dev nD) (t : Fin cfg0.N) :
    iprop(Phi0 V c t.val ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop(Phi0 V c (t.val + 1) ∗ (dat0 V c).owesAt () t.castSucc
        ∗ owns (c : Thread nD τ) (st0_0 t) fullShare (iblk0 V c 0 t) ∗ owns (c : Thread nD τ) (st0_1 t) fullShare (iblk0 V c 1 t)
        ∗ (dat0 V c).leavesExact 2 t) := by
  simp only [before0_0, before0_1]; unfold Phi0 bodyAt0
  iintro ⟨⟨%a, %ha, HS, HR⟩, Ho, ⟨%d0, H0⟩, ⟨%d1, H1⟩, ⟨%d2, H2⟩⟩
  iapply (sound_kernel0 c Set.univ (grid0.coords t) _ _ _ _ _ _ _ _ (iblk0 V c 0 t) (iblk0 V c 1 t) _ a _ (acc0_step V c t a ha) _)
  iframe H0 H1 H2 HS
  iintro ⟨H0, H1, H2, HS⟩
  iframe Ho H0 H1
  isplitr [H2]
  · iexists (acc0 V c t.val t.isLt); iframe; ipureintro; exact fun m h e => by obtain rfl := Nat.add_right_cancel e; rfl
  iapply (leaves0_2 V c t d2); iexact H2

theorem body_obligation0 (c : Dev nD) : BodyObligation (dat0 (F := F) V c) (defs₀ (F := F)) Variants.none () Set.univ := fun t => by
  rw [bigSep_W0, bigSep_W0]
  exact sound_body0 V c t

theorem PhiIn0 (c : Dev nD) : Pipeline.ΦA spec0 c ⊢ (dat0 V c).Φ 0 := by
  rw [PhiA0_eq]; show _ ⊢ Phi0 V c 0; unfold Phi0
  iintro ⟨⟨⟨%d, HS⟩, HR⟩, Hg⟩
  iexists d; iframe; ipureintro; exact fun m h e => by omega

theorem PhiOut0 (c : Dev nD) : (dat0 V c).Φ (Fin.last cfg0.N) ⊢ Pipeline.ΦA spec0 c := by
  rw [PhiA0_eq]; show Phi0 V c _ ⊢ _; unfold Phi0
  iintro ⟨%d, -, HS, HR, Hg⟩
  iframe HR Hg; iexists d; iexact HS

end Cert.KernelIdeal.Hand

end
-- ==== Proof.KI.Reg1.lean ====
import proofs.«425851_j42021960024258_2_alg».proof.Proof.Gen.KernelIdeal.Launch
import proofs.«425851_j42021960024258_2_alg».proof.Proof.Gen.KernelIdeal.Skeleton
import proofs.«425851_j42021960024258_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem zero_off1 : (![0, 0] : Fin 2 → Nat) = fun _ => 0 := funext fun a => by fin_cases a <;> rfl

-- The body reads its four input blocks whole and overwrites the whole output block with their payload.
set_option maxHeartbeats 1000000 in
theorem sound_kernel1 (c : Dev nD) (E : Set ℕ) (i : grid1.Coords)
    (arg1 : Memref sig .tc .vmem S512x1280 .f32) (harg1 : arg1.IsWhole) (arg2 : Memref sig .tc .vmem S512x1280 .f32) (harg2 : arg2.IsWhole)
    (arg3 : Memref sig .tc .vmem S1280x1280 .bf16) (harg3 : arg3.IsWhole) (arg4 : Memref sig .tc .vmem S1x1280 .f32) (harg4 : arg4.IsWhole)
    (arg5 : Memref sig .tc .vmem S512x1280 .f32) (harg5 : arg5.IsWhole) {D0 D1 D2 D3 D4 : Type}
    {X0 : D0 → Vec F S512x1280 .f32} {x0} (h0 : ∀ d, X0 d = x0) {X1 : D1 → Vec F S512x1280 .f32} {x1} (h1 : ∀ d, X1 d = x1)
    {X2 : D2 → Vec F S1280x1280 .bf16} {x2} (h2 : ∀ d, X2 d = x2) {X3 : D3 → Vec F S1x1280 .f32} {x3} (h3 : ∀ d, X3 d = x3)
    {X4 : D4 → Vec F S512x1280 .f32} (R S : sProp 𝕄) :
    iprop(R ∗ S ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d))
        ∗ ∃ d, owns (c : Thread nD τ) arg5 fullShare (X4 d))
      ⊢ wp frame (wpE (defs₀ (F := F)) Variants.none c none) E
          (cc1__linear_kernel i arg1 harg1 arg2 harg2 arg3 harg3 arg4 harg4 arg5 harg5) fun _ =>
          iprop(R ∗ S ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x0 x1 x2 x3)) := by
  simp only [cc1__linear_kernel_eq_skeleton]; unfold cc1__linear_kernel_skel owns
  iintro ⟨HR, HS, ⟨%d0, %f0, %hf0, H0⟩, ⟨%d1, %f1, %hf1, H1⟩, ⟨%d2, %f2, %hf2, H2⟩, ⟨%d3, %f3, %hf3, H3⟩, ⟨%d4, %f4, -, H4⟩⟩
  obtain rfl := hf0.trans (h0 _); obtain rfl := hf1.trans (h1 _); obtain rfl := hf2.trans (h2 _); obtain rfl := hf3.trans (h3 _)
  sl_exec
  sl_step
  isplitl [HR]; · iexact HR
  isplitl [HS]; · iexact HS
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ fun y => ⟨_, List.mem_singleton_self _, View.mem_set_unit_zero zero_off1 inb_S512x1280_S512x1280_0_0 y⟩,
    View.canon_unit_zero zero_off1]
  congr 1 <;> exact View.ld_unit_zero zero_off1 _ _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = k1_pay1 (iblk1 V c 0 t) (iblk1 V c 1 t) (iblk1 V c 2 t) (iblk1 V c 3 t) := rfl

-- The body leaves every input block as it found it.
theorem before1 (c : Dev nD) (w : Fin cfg1.W) (hw : w ≠ 4) (t : Fin cfg1.N) (d) : (dat1 V c).before w t d = (dat1 V c).after w t := by
  fin_cases w <;> first
    | exact absurd rfl hw
    | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp _ _ _ (bodyAt1 t) _
  exact sound_kernel1 c _ _ _ _ _ _ _ _ _ _ _ _ (before1 V c 0 (by decide) t) (before1 V c 1 (by decide) t)
    (before1 V c 2 (by decide) t) (before1 V c 3 (by decide) t) _ _

theorem PhiIn1 (c : Dev nD) : Pipeline.ΦA spec1 c ⊢ (dat1 V c).Φ 0 := .rfl

theorem PhiOut1 (c : Dev nD) : (dat1 V c).Φ (Fin.last cfg1.N) ⊢ Pipeline.ΦA spec1 c := .rfl

end Cert.KernelIdeal.Hand

end
-- ==== Proof.KI.Reg2.lean ====
import proofs.«425851_j42021960024258_2_alg».proof.Proof.Gen.KernelIdeal.Launch
import proofs.«425851_j42021960024258_2_alg».proof.Proof.Gen.KernelIdeal.Skeleton
import proofs.«425851_j42021960024258_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem offz2 : (![0, 0] : Fin 2 → Nat) = fun _ => 0 := funext fun a => by fin_cases a <;> rfl
abbrev cond2_1 (i : grid2.Coords) : Prop := (Scalar.cmpi .ne (Scalar.extui (Scalar.cmpi .eq (BitVec.ofNat 32 (i 1).val) 0#32)) 0#32) = 1#1
theorem hcond2_1 : ∀ t : Fin cfg2.N, cond2_1 (grid2.coords t) ↔ t.val % 5 = 0 :=
  (by decide +kernel : ∀ t : Fin grid2.N, cond2_1 (grid2.coords t) ↔ t.val % 5 = 0)
abbrev cond2_2 (i : grid2.Coords) : Prop := k2_cond2 i = 1#1
theorem hcond2_2 : ∀ t : Fin cfg2.N, cond2_2 (grid2.coords t) ↔ t.val % 5 = 4 :=
  (by decide +kernel : ∀ t : Fin grid2.N, cond2_2 (grid2.coords t) ↔ t.val % 5 = 4)
theorem idleAt2_2 : ∀ t : Fin cfg2.N, ¬cond2_2 (grid2.coords t) → cfg2.idle 2 (grid2.coords t) = true :=
  (by decide +kernel : ∀ t : Fin grid2.N, ¬cond2_2 (grid2.coords t) → idle2 2 (grid2.coords t) = true)
theorem liveAt2_2 : ∀ t : Fin cfg2.N, cond2_2 (grid2.coords t) → cfg2.idle 2 (grid2.coords t) = false :=
  (by decide +kernel : ∀ t : Fin grid2.N, cond2_2 (grid2.coords t) → idle2 2 (grid2.coords t) = false)

-- A store through the whole block, made last, leaves its payload whatever was stored before.
theorem read_writes_unit2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons.mpr (.inl rfl), View.mem_set_unit_zero h inb y⟩).trans
    (View.canon_cons_unit_zero h inb w L)

set_option maxHeartbeats 1000000 in
-- The accumulator restarts from zeros where k = 0, gains A·X, and is copied to the output block where k = 4.
theorem sound_kernel2 (c : Dev nD) (E : Set ℕ) (i : grid2.Coords)
    (arg2 : Memref sig .tc .vmem S512x2048 .bf16) (harg2 : arg2.IsWhole) (arg3 : Memref sig .tc .vmem S2048x1280 .bf16) (harg3 : arg3.IsWhole)
    (arg4 : Memref sig .tc .vmem S512x1280 .f32) (harg4 : arg4.IsWhole) (arg5 : Memref sig .tc .vmem S512x1280 .f32) (harg5 : arg5.IsWhole)
    (x0 : Vec F S512x2048 .bf16) (x1 : Vec F S2048x1280 .bf16) (xo xs acc : Vec F S512x1280 .f32)
    (hacc : k2_pay2 (if cond2_1 i then k2_pay1 (F := F) else xs) x0 x1 = acc) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (if cond2_2 i then acc else xo) ∗ owns (c : Thread nD τ) arg5 fullShare acc) -∗ K ⟨⟩))
      ⊢ wp frame (wpE (defs₀ (F := F)) Variants.none c none) E (cc2__agg_kernel i arg2 harg2 arg3 harg3 arg4 harg4 arg5 harg5) K := by
  subst hacc
  simp only [cc2__agg_kernel_eq_skeleton]; unfold cc2__agg_kernel_skel owns
  iintro ⟨⟨%f2, %hf2, H2⟩, ⟨%f3, %hf3, H3⟩, ⟨%f4, %hf4, H4⟩, ⟨%f5, %hf5, H5⟩, Hk⟩
  subst hf2 hf3 hf4 hf5
  sl_exec
  sl_step
  iapply Hk
  isplitl [H2]
  on_goal 2 => isplitl [H3]
  on_goal 3 => isplitl [H4]
  all_goals
    iexists _; isplitr; swap
    · first | iexact H2 | iexact H3 | iexact H4 | iexact H5
    ipureintro
    first
    | rfl
    | sl_unfold_words
      by_cases hc1 : cond2_1 i <;> by_cases hc2 : cond2_2 i <;>
        (first | simp only [dif_neg hc1, if_neg hc1] | simp only [dif_pos hc1, if_pos hc1]) <;>
        (try first | simp only [dif_neg hc2, if_neg hc2] | simp only [dif_pos hc2, if_pos hc2]) <;>
        simp only [read_writes_unit2 (S := S512x1280) _ _ offz2, View.readCov_unit_zero (S := S512x1280) _ offz2, View.readAt_eq_ld,
          View.ld_unit_zero (S := S512x1280) offz2, View.ld_unit_zero (S := S512x2048) offz2, View.ld_unit_zero (S := S2048x1280) offz2]

def acc2 (c : Dev nD) : (n : ℕ) → n < cfg2.N → Vec F S512x1280 .f32
  | 0, h => k2_pay2 (k2_pay1 (F := F)) (iblk2 V c 0 ⟨0, h⟩) (iblk2 V c 1 ⟨0, h⟩)
  | n + 1, h => k2_pay2 (if (n + 1) % 5 = 0 then k2_pay1 (F := F) else acc2 c n (Nat.lt_of_succ_lt h))
      (iblk2 V c 0 ⟨n + 1, h⟩) (iblk2 V c 1 ⟨n + 1, h⟩)
theorem acc2_first (c : Dev nD) (n : ℕ) (h : n < cfg2.N) (h5 : n % 5 = 0) :
    acc2 V c n h = k2_pay2 (k2_pay1 (F := F)) (iblk2 V c 0 ⟨n, h⟩) (iblk2 V c 1 ⟨n, h⟩) := by
  cases n with
  | zero => rfl
  | succ n => rw [acc2, if_pos h5]
theorem acc2_next (c : Dev nD) (n : ℕ) (h : n < cfg2.N) (h5 : n % 5 ≠ 0) :
    acc2 V c n h = k2_pay2 (acc2 V c (n - 1) (Nat.lt_of_le_of_lt (Nat.sub_le _ _) h)) (iblk2 V c 0 ⟨n, h⟩) (iblk2 V c 1 ⟨n, h⟩) := by
  cases n with
  | zero => exact absurd (Nat.zero_mod 5) h5
  | succ n => rw [acc2, if_neg h5]; rfl
-- What the body leaves in the accumulator at point t, if it found there what the point before left.
theorem acc2_step (c : Dev nD) (t : Fin cfg2.N) (a : Vec F S512x1280 .f32) (ha : ∀ m h, t.val = m + 1 → a = acc2 V c m h) :
    k2_pay2 (if cond2_1 (grid2.coords t) then k2_pay1 (F := F) else a) (iblk2 V c 0 t) (iblk2 V c 1 t) = acc2 V c t.val t.isLt := by
  by_cases h0 : t.val % 5 = 0
  · rw [if_pos ((hcond2_1 t).mpr h0), acc2_first V c _ _ h0]
  · rw [if_neg (mt (hcond2_1 t).mp h0), acc2_next V c _ _ h0, ← ha (t.val - 1) _ (by omega)]

abbrev scM2 : Memref sig .tc .vmem S512x1280 .f32 := Memref.whole cc2_scratch0

-- Before point n the accumulator holds what point n - 1 left; before the first point, anything.
def Phi2 (c : Dev nD) (n : ℕ) : sProp 𝕄 :=
  iprop(∃ d : Vec F S512x1280 .f32, ⌜∀ m h, n = m + 1 → d = acc2 V c m h⌝ ∗ owns (c : Thread nD τ) scM2 fullShare d
    ∗ Pipeline.scopedRestBut (Ix := Unit) (Name := ℕ) (U := UR sig nD τ) (Lvl := ℕ) (Val := Elt F) spec2 c [cc2_scratch0]
    ∗ (∃ r, prngReg c r))

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  (dat2 V c).before_fetched 0 t (fetch2_0 t) d
theorem before2_1 (c : Dev nD) (t : Fin cfg2.N) (d) : (dat2 V c).before 1 t d = iblk2 V c 1 t :=
  (dat2 V c).before_fetched 1 t (fetch2_1 t) d

-- The output block holds the accumulator where k = 4 and is handed back as found elsewhere.
theorem leaves2_2 (c : Dev nD) (t : Fin cfg2.N) (d) :
    owns (c : Thread nD τ) (st2_2 t) fullShare (if cond2_2 (grid2.coords t) then acc2 V c t.val t.isLt else (dat2 V c).before 2 t d)
      ⊢ (dat2 V c).leavesExact 2 t := by
  by_cases h : cond2_2 (grid2.coords t)
  · rw [if_pos h]; unfold Dat.leavesExact; rw [liveAt2_2 t h]; iintro H; iexact H
  · rw [if_neg h, Dat.leavesExact_idle _ 2 t (idleAt2_2 t h)
      (Bool.eq_false_iff.mpr fun hf => h ((hcond2_2 t).mpr ((flush2_2 t).mp hf)))]; iintro H; iexists d; iexact H

theorem sound_body2 (c : Dev nD) (t : Fin cfg2.N) :
    iprop(Phi2 V c t.val ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) fun _ =>
      iprop(Phi2 V c (t.val + 1) ∗ (dat2 V c).owesAt () t.castSucc
        ∗ owns (c : Thread nD τ) (st2_0 t) fullShare (iblk2 V c 0 t) ∗ owns (c : Thread nD τ) (st2_1 t) fullShare (iblk2 V c 1 t)
        ∗ (dat2 V c).leavesExact 2 t) := by
  simp only [before2_0, before2_1]; unfold Phi2 bodyAt2
  iintro ⟨⟨%a, %ha, HS, HR⟩, Ho, ⟨%d0, H0⟩, ⟨%d1, H1⟩, ⟨%d2, H2⟩⟩
  iapply (sound_kernel2 c Set.univ (grid2.coords t) _ _ _ _ _ _ _ _ (iblk2 V c 0 t) (iblk2 V c 1 t) _ a _ (acc2_step V c t a ha) _)
  iframe H0 H1 H2 HS
  iintro ⟨H0, H1, H2, HS⟩
  iframe Ho H0 H1
  isplitr [H2]
  · iexists (acc2 V c t.val t.isLt); iframe; ipureintro; exact fun m h e => by obtain rfl := Nat.add_right_cancel e; rfl
  iapply (leaves2_2 V c t d2); iexact H2

theorem body_obligation2 (c : Dev nD) : BodyObligation (dat2 (F := F) V c) (defs₀ (F := F)) Variants.none () Set.univ := fun t => by
  rw [bigSep_W2, bigSep_W2]
  exact sound_body2 V c t

theorem PhiIn2 (c : Dev nD) : Pipeline.ΦA spec2 c ⊢ (dat2 V c).Φ 0 := by
  rw [PhiA2_eq]; show _ ⊢ Phi2 V c 0; unfold Phi2
  iintro ⟨⟨⟨%d, HS⟩, HR⟩, Hg⟩
  iexists d; iframe; ipureintro; exact fun m h e => by omega

theorem PhiOut2 (c : Dev nD) : (dat2 V c).Φ (Fin.last cfg2.N) ⊢ Pipeline.ΦA spec2 c := by
  rw [PhiA2_eq]; show Phi2 V c _ ⊢ _; unfold Phi2
  iintro ⟨%d, -, HS, HR, Hg⟩
  iframe HR Hg; iexists d; iexact HS

end Cert.KernelIdeal.Hand

end
-- ==== Proof.KI.Reg3.lean ====
import proofs.«425851_j42021960024258_2_alg».proof.Proof.Gen.KernelIdeal.Launch
import proofs.«425851_j42021960024258_2_alg».proof.Proof.Gen.KernelIdeal.Skeleton
import proofs.«425851_j42021960024258_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem zero_off3 : (![0, 0] : Fin 2 → Nat) = fun _ => 0 := funext fun a => by fin_cases a <;> rfl

-- The body reads its four input blocks whole and overwrites the whole output block with their payload.
set_option maxHeartbeats 1000000 in
theorem sound_kernel3 (c : Dev nD) (E : Set ℕ) (i : grid3.Coords)
    (arg1 : Memref sig .tc .vmem S512x1280 .f32) (harg1 : arg1.IsWhole) (arg2 : Memref sig .tc .vmem S512x1280 .f32) (harg2 : arg2.IsWhole)
    (arg3 : Memref sig .tc .vmem S1280x1280 .bf16) (harg3 : arg3.IsWhole) (arg4 : Memref sig .tc .vmem S1x1280 .f32) (harg4 : arg4.IsWhole)
    (arg5 : Memref sig .tc .vmem S512x1280 .f32) (harg5 : arg5.IsWhole) {D0 D1 D2 D3 D4 : Type}
    {X0 : D0 → Vec F S512x1280 .f32} {x0} (h0 : ∀ d, X0 d = x0) {X1 : D1 → Vec F S512x1280 .f32} {x1} (h1 : ∀ d, X1 d = x1)
    {X2 : D2 → Vec F S1280x1280 .bf16} {x2} (h2 : ∀ d, X2 d = x2) {X3 : D3 → Vec F S1x1280 .f32} {x3} (h3 : ∀ d, X3 d = x3)
    {X4 : D4 → Vec F S512x1280 .f32} (R S : sProp 𝕄) :
    iprop(R ∗ S ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d))
        ∗ ∃ d, owns (c : Thread nD τ) arg5 fullShare (X4 d))
      ⊢ wp frame (wpE (defs₀ (F := F)) Variants.none c none) E
          (cc3__linear_kernel i arg1 harg1 arg2 harg2 arg3 harg3 arg4 harg4 arg5 harg5) fun _ =>
          iprop(R ∗ S ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k3_pay1 x0 x1 x2 x3)) := by
  simp only [cc3__linear_kernel_eq_skeleton]; unfold cc3__linear_kernel_skel owns
  iintro ⟨HR, HS, ⟨%d0, %f0, %hf0, H0⟩, ⟨%d1, %f1, %hf1, H1⟩, ⟨%d2, %f2, %hf2, H2⟩, ⟨%d3, %f3, %hf3, H3⟩, ⟨%d4, %f4, -, H4⟩⟩
  obtain rfl := hf0.trans (h0 _); obtain rfl := hf1.trans (h1 _); obtain rfl := hf2.trans (h2 _); obtain rfl := hf3.trans (h3 _)
  sl_exec
  sl_step
  isplitl [HR]; · iexact HR
  isplitl [HS]; · iexact HS
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ fun y => ⟨_, List.mem_singleton_self _, View.mem_set_unit_zero zero_off3 inb_S512x1280_S512x1280_0_0 y⟩,
    View.canon_unit_zero zero_off3]
  congr 1 <;> exact View.ld_unit_zero zero_off3 _ _

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay1 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = k3_pay1 (iblk3 V c 0 t) (iblk3 V c 1 t) (iblk3 V c 2 t) (iblk3 V c 3 t) := rfl

-- The body leaves every input block as it found it.
theorem before3 (c : Dev nD) (w : Fin cfg3.W) (hw : w ≠ 4) (t : Fin cfg3.N) (d) : (dat3 V c).before w t d = (dat3 V c).after w t := by
  fin_cases w <;> first
    | exact absurd rfl hw
    | exact ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  show _ ⊢ wp _ _ _ (bodyAt3 t) _
  exact sound_kernel3 c _ _ _ _ _ _ _ _ _ _ _ _ (before3 V c 0 (by decide) t) (before3 V c 1 (by decide) t)
    (before3 V c 2 (by decide) t) (before3 V c 3 (by decide) t) _ _

theorem PhiIn3 (c : Dev nD) : Pipeline.ΦA spec3 c ⊢ (dat3 V c).Φ 0 := .rfl

theorem PhiOut3 (c : Dev nD) : (dat3 V c).Φ (Fin.last cfg3.N) ⊢ Pipeline.ΦA spec3 c := .rfl

end Cert.KernelIdeal.Hand

end
-- ==== Proof.KI.Reg4.lean ====
import proofs.«425851_j42021960024258_2_alg».proof.Proof.Gen.KernelIdeal.Launch
import proofs.«425851_j42021960024258_2_alg».proof.Proof.Gen.KernelIdeal.Skeleton
import proofs.«425851_j42021960024258_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
abbrev cond4_1 (i : grid4.Coords) : Prop := k4_cond2 i = 1#1

theorem hcond4_0 : ∀ t : Fin cfg4.N, cond4_0 (grid4.coords t) ↔ t.val = 0 := by decide +kernel
theorem excl4 : ∀ t : Fin cfg4.N, cond4_0 (grid4.coords t) → ¬cond4_1 (grid4.coords t) := by decide +kernel
theorem idle4_2 : ∀ t : Fin cfg4.N, ¬cond4_1 (grid4.coords t) → cfg4.idle 2 (grid4.coords t) = true ∧ (cfg4.win 2).flush t = false := by
  decide +kernel
theorem live4_2 : ∀ t : Fin cfg4.N, cond4_1 (grid4.coords t) → cfg4.idle 2 (grid4.coords t) = false := by decide +kernel

theorem zeroOff4 : (![0, 0] : Fin 2 → Nat) = fun _ => 0 := by funext a; fin_cases a <;> rfl

abbrev scM4 : Memref sig .tc .vmem S1x1280 .f32 := Memref.whole cc4_scratch0

-- The newest piece covers every index.
theorem read_writes_row4 (v : View sig .tc .vmem S1x1280 .f32) (f : v.ty.Contents (Elt F)) (w : Vec F S1x1280 .f32)
    (L : List (View.Piece (Elt F) S1x1280 .f32)) :
    v.read (Elt F) (v.writes (Elt F) f
      ((⟨Rect.unit (s := S1x1280) ![0, 0] S1x1280.size inb_S1x1280_S1x1280_0_0, w⟩ : View.Piece (Elt F) S1x1280 .f32) :: L)) = w := by
  rw [View.read_writes_eq_canon v f _ (fun y =>
    ⟨(⟨Rect.unit (s := S1x1280) ![0, 0] S1x1280.size inb_S1x1280_S1x1280_0_0, w⟩ : View.Piece (Elt F) S1x1280 .f32),
      List.mem_cons_self .., View.mem_set_unit_zero zeroOff4 inb_S1x1280_S1x1280_0_0 y⟩)]
  exact View.canon_cons_unit_zero zeroOff4 inb_S1x1280_S1x1280_0_0 w L

-- The whole-shape rectangle at zero offsets embeds as the identity.
theorem readAt4 {S : Shape} (v : View sig .tc .vmem S .f32) (f : v.ty.Contents (Elt F)) {off : Fin S.rank → ℕ} (h : off = fun _ => 0) (inb) :
    View.readAt (Elt F) v (Rect.unit off S.size inb).toLoadRect f = v.read (Elt F) f := by
  rw [View.readAt_eq_ld]; exact View.ld_unit_zero h inb _

set_option maxHeartbeats 1000000 in
-- One step of the pooling: the row, zero where the first condition holds, gains the blocks' column sums; where the second holds the output is that row scaled.
theorem sound_kernel4 (c : Dev nD) (E : Set ℕ) (i : grid4.Coords)
    (arg1 : Memref sig .tc .vmem S1000x1280 .f32) (harg1 : arg1.IsWhole) (arg2 : Memref sig .tc .vmem S1000x1280 .f32) (harg2 : arg2.IsWhole)
    (arg3 : Memref sig .tc .vmem S1x1280 .f32) (harg3 : arg3.IsWhole) (arg4 : Memref sig .tc .vmem S1x1280 .f32) (harg4 : arg4.IsWhole)
    (hex : cond4_0 i → ¬cond4_1 i) (x0 x1 : Vec F S1000x1280 .f32) (d xs : Vec F S1x1280 .f32) (K : PUnit → sProp 𝕄) :
    iprop(owns (c : Thread nD τ) arg1 fullShare x0 ∗ owns (c : Thread nD τ) arg2 fullShare x1 ∗ owns (c : Thread nD τ) arg3 fullShare d
        ∗ owns (c : Thread nD τ) arg4 fullShare xs
        ∗ (iprop(owns (c : Thread nD τ) arg1 fullShare x0 ∗ owns (c : Thread nD τ) arg2 fullShare x1
             ∗ owns (c : Thread nD τ) arg3 fullShare (if cond4_1 i then k4_pay3 (k4_pay2 (if cond4_0 i then k4_pay1 else xs) x0 x1) else d)
             ∗ owns (c : Thread nD τ) arg4 fullShare (k4_pay2 (if cond4_0 i then k4_pay1 else xs) x0 x1)) -∗ K ⟨⟩))
      ⊢ wp frame (wpE (defs₀ (F := F)) Variants.none c none) E (cc4__mean_pool_kernel i arg1 harg1 arg2 harg2 arg3 harg3 arg4 harg4) K := by
  by_cases hc0 : cond4_0 i <;> by_cases hc1 : cond4_1 i
  · exact absurd hc1 (hex hc0)
  all_goals
    first | rw [if_pos hc1] | rw [if_neg hc1]
    first | rw [if_pos hc0] | rw [if_neg hc0]
    simp only [cc4__mean_pool_kernel_eq_skeleton]; unfold cc4__mean_pool_kernel_skel owns
    iintro ⟨⟨%f0, %hf0, H0⟩, ⟨%f1, %hf1, H1⟩, ⟨%f3, %hf3, H3⟩, ⟨%f4, %hf4, H4⟩, Hk⟩
    subst hf0 hf1 hf3 hf4
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H3]
    · iexists _; isplitr
      swap; · iexact H3
      ipureintro
      sl_unfold_run_names
      first | rw [read_writes_row4, View.readCov_unit_zero (S := S1x1280) _ zeroOff4, readAt4 (S := S1x1280) _ _ zeroOff4,
        readAt4 (S := S1000x1280) _ _ zeroOff4, readAt4 (S := S1000x1280) _ _ zeroOff4] | rfl
    iexists _; isplitr
    swap; · iexact H4
    ipureintro
    sl_unfold_run_names
    rw [read_writes_row4, readAt4 (S := S1000x1280) _ _ zeroOff4, readAt4 (S := S1000x1280) _ _ zeroOff4]
    first | rw [View.readCov_unit_zero (S := S1x1280) _ zeroOff4] | rw [readAt4 (S := S1x1280) _ _ zeroOff4]

def acc4 (c : Dev nD) : (n : ℕ) → n < cfg4.N → Vec F S1x1280 .f32
  | 0, h => k4_pay2 (k4_pay1 (F := F)) (iblk4 V c 0 ⟨0, h⟩) (iblk4 V c 1 ⟨0, h⟩)
  | n + 1, h => k4_pay2 (acc4 c n (Nat.lt_of_succ_lt h)) (iblk4 V c 0 ⟨n + 1, h⟩) (iblk4 V c 1 ⟨n + 1, h⟩)

theorem acc4_zero (c : Dev nD) (h : 0 < cfg4.N) :
    acc4 V c 0 h = k4_pay2 (k4_pay1 (F := F)) (iblk4 V c 0 ⟨0, h⟩) (iblk4 V c 1 ⟨0, h⟩) := rfl

theorem acc4_succ (c : Dev nD) (n : ℕ) (h : n + 1 < cfg4.N) :
    acc4 V c (n + 1) h = k4_pay2 (acc4 V c n (Nat.lt_of_succ_lt h)) (iblk4 V c 0 ⟨n + 1, h⟩) (iblk4 V c 1 ⟨n + 1, h⟩) := rfl

-- One step of the recursion, over the point: the first point starts from the zero row, a later one from the row before.
theorem acc4_step (c : Dev nD) (t : Fin cfg4.N) (xs : Vec F S1x1280 .f32) (hxs : ∀ h, t.val ≠ 0 → xs = acc4 V c (t.val - 1) h) :
    k4_pay2 (if cond4_0 (grid4.coords t) then k4_pay1 else xs) (iblk4 V c 0 t) (iblk4 V c 1 t) = acc4 V c t.val t.isLt := by
  obtain ⟨n, hn⟩ := t
  cases n with
  | zero => rw [if_pos ((hcond4_0 _).mpr rfl)]; rfl
  | succ n => rw [if_neg fun h => Nat.succ_ne_zero n ((hcond4_0 _).mp h), hxs (Nat.lt_of_succ_lt hn) (Nat.succ_ne_zero n)]; rfl

-- Before position `n` the carried row is the partial sum over the points before it (anything when there is none).
def Phi4 (c : Dev nD) (n : ℕ) : sProp 𝕄 :=
  iprop(iprop((∃ xs, ⌜∀ h, n ≠ 0 → xs = acc4 V c (n - 1) h⌝ ∗ owns (c : Thread nD τ) scM4 fullShare xs)
    ∗ Pipeline.scopedRestBut spec4 c [cc4_scratch0]) ∗ (∃ r, prngReg c r))

theorem PhiA4_eq (c : Dev nD) :
    (Pipeline.ΦA spec4 c : sProp 𝕄)
      = iprop(iprop((∃ d, owns (c : Thread nD τ) scM4 fullShare d) ∗ Pipeline.scopedRestBut spec4 c [cc4_scratch0]) ∗ (∃ r, prngReg c r)) := by
  unfold Pipeline.ΦA; rw [scopedRest4_split]; simp only [scM4, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val t.isLt)
  Φ t := Phi4 V c t.val
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = k4_pay3 (acc4 V c t.val t.isLt) := rfl

-- The body leaves both inputs' blocks as it finds them.
theorem before4 (c : Dev nD) (t : Fin cfg4.N) :
    (∀ d, (dat4 V c).before 0 t d = iblk4 V c 0 t) ∧ (∀ d, (dat4 V c).before 1 t d = iblk4 V c 1 t) := by
  constructor <;> exact Dat.before_in_eq_fetched _ _ rfl (fun _ => rfl) (fun _ _ _ => rfl) (fun _ => rfl) t

-- The two cases of the output's postcondition, by the second condition.
theorem leaves4_2 (c : Dev nD) (t : Fin cfg4.N) (d) (r : Vec F S1x1280 .f32) (hr : r = acc4 V c t.val t.isLt) :
    owns (c : Thread nD τ) (st4_2 t) fullShare (if cond4_1 (grid4.coords t) then k4_pay3 r else (dat4 V c).before 2 t d)
      ⊢ (dat4 V c).leavesExact 2 t := by
  subst hr
  by_cases h : cond4_1 (grid4.coords t)
  · rw [if_pos h]; unfold Dat.leavesExact; rw [live4_2 t h]; exact .rfl
  · rw [if_neg h, Dat.leavesExact_idle _ 2 t (idle4_2 t h).1 (idle4_2 t h).2]
    iintro H; iexists d; iexact H

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare (iblk4 V c 0 t)
        ∗ owns (c : Thread nD τ) (st4_1 t) fullShare (iblk4 V c 1 t)
        ∗ (dat4 V c).leavesExact 2 t)) := by
  unfold bodyAt4
  simp only [(before4 V c t).1, (before4 V c t).2]
  rw [show (dat4 V c).owesAt () t.succ = (dat4 V c).owesAt () t.castSucc from rfl,
    show (dat4 V c).Φ t.castSucc = Phi4 V c t.val from rfl, show (dat4 V c).Φ t.succ = Phi4 V c (t.val + 1) from rfl]
  unfold Phi4
  iintro ⟨⟨⟨⟨%xs, %hxs, HS⟩, HR⟩, Hg⟩, Ho, ⟨%d0, H0⟩, ⟨%d1, H1⟩, ⟨%d2, H2⟩⟩
  have hr := acc4_step V c t xs hxs
  iapply (sound_kernel4 c Set.univ (grid4.coords t) _ _ _ _ _ _ _ _ (excl4 t) (iblk4 V c 0 t) (iblk4 V c 1 t) ((dat4 V c).before 2 t d2) xs _)
  iframe H0 H1 H2 HS
  iintro ⟨H0, H1, H2, HS⟩
  iframe HR Hg Ho H0 H1
  isplitl [HS]
  · iexists _; isplitr
    · ipureintro; exact fun _ _ => hr
    iexact HS
  iapply (leaves4_2 V c t d2 _ hr); iexact H2

theorem body_obligation4 (c : Dev nD) : BodyObligation (dat4 (F := F) V c) (defs₀ (F := F)) Variants.none () Set.univ := fun t => by
  rw [bigSep_W4, bigSep_W4]
  exact sound_body4 V c t

theorem PhiIn4 (c : Dev nD) : Pipeline.ΦA spec4 c ⊢ (dat4 V c).Φ 0 := by
  rw [PhiA4_eq, show (dat4 V c).Φ 0 = Phi4 V c 0 from rfl]; unfold Phi4
  iintro ⟨⟨⟨%d, HS⟩, HR⟩, Hg⟩
  iframe HR Hg
  iexists d; isplitr
  · ipureintro; exact fun _ h => absurd rfl h
  iexact HS

theorem PhiOut4 (c : Dev nD) : (dat4 V c).Φ (Fin.last cfg4.N) ⊢ Pipeline.ΦA spec4 c := by
  rw [PhiA4_eq, show (dat4 V c).Φ (Fin.last cfg4.N) = Phi4 V c cfg4.N from rfl]; unfold Phi4
  iintro ⟨⟨⟨%xs, -, HS⟩, HR⟩, Hg⟩
  iframe HR Hg
  iexists xs; iexact HS

end Cert.KernelIdeal.Hand

end
-- ==== Proof.KI.Fold.lean ====
import proofs.«425851_j42021960024258_2_alg».proof.Proof.KI.Reg0
import proofs.«425851_j42021960024258_2_alg».proof.Proof.KI.Reg1
import proofs.«425851_j42021960024258_2_alg».proof.Proof.KI.Reg2
import proofs.«425851_j42021960024258_2_alg».proof.Proof.KI.Reg3
import proofs.«425851_j42021960024258_2_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe

variable {F : FTy → Type} [FloatOps F] [Named F]

abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb
abbrev V5 : (c : Dev nD) → (b : Ref sig .tc) → Buf (Elt F) ((c : Thread nD τ).loc b) := fun c b => W5 m ρ c b

abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) :=
  Pipeline.withArrays_of_ne spec2 c _ _ b hb
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
abbrev V8 : (c : Dev nD) → (b : Ref sig .tc) → Buf (Elt F) ((c : Thread nD τ).loc b) := fun c b => W8 m ρ c b

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb
abbrev V10 : (c : Dev nD) → (b : Ref sig .tc) → Buf (Elt F) ((c : Thread nD τ).loc b) := fun c b => W10 m ρ c b

end Cert.KernelIdeal.Hand

end
-- ==== Proof.KI.Run.lean ====
import proofs.«425851_j42021960024258_2_alg».proof.Proof.Gen.KernelIdeal.Regions
import proofs.«425851_j42021960024258_2_alg».proof.Proof.KI.Fold
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.ProofMode
open Idealize.ShloMosaic.Rounds
open Idealize.ShloMosaic.Pipeline (Dat BodyObligation)

variable {F : FTy → Type} [FloatOps F] [Named F]

local notation "𝕄" => MT nD τ sig Unit (Elt F) ℕ (UR sig nD τ) ℕ

theorem owes_point {cfg : Pipeline.Cfg sig Λ₀} {c : Dev nD} (dat : Dat τ (Elt F) Unit ℕ (UR sig nD τ) ℕ cfg c)
    (t : Fin (cfg.N + 1)) (h0 : dat.owed t = 0) (hr : dat.recorded t = Set.univ) :
    (dat.owesAt () t : sProp 𝕄) = iprop(∃ W, owes (c : Thread nD τ) (0 : CellTallies nD τ sig Unit) W) := by
  unfold Pipeline.Dat.owesAt Pipeline.owesWithin Pipeline.Dat.bound
  rw [h0, hr]
  refine Entails.antisymm ?_ ?_ <;> change (_ : sProp 𝕄) ⊢ _
  · iintro ⟨%W, -, HO⟩; iexists W; iexact HO
  iintro ⟨%W, HO⟩; iexists W; isplitr
  · ipureintro; exact fun _ _ => Or.inl trivial
  iexact HO

variable (m : (ℓ : Loc nD τ sig) → Buf (Elt F) ℓ) (ρ : Dev nD → PrngReg)

def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R

-- A region entered at the contents W of the unscoped buffers leaves them at W with its arrays at their final contents.
set_option backward.isDefEq.respectTransparency.types false in
def reg {p : Fin 5} (lf : Pipeline.LaunchFacts (nD := nD) (τ := τ) cfgs p) (W : Dev nD → Valuation τ sig (Elt F))
    (hq : ∀ c w, (pdats m ρ p c).q w = fullShare) (h0 : ∀ c t, (pdats m ρ p c).owed t = 0)
    (hr : ∀ c t, (pdats m ρ p c).recorded t = Set.univ)
    (hA : ∀ c w, (pdats m ρ p c).A w = W c (Pipeline.arrRef (cfgs p).spec w))
    (hb : ∀ c, BodyObligation (pdats m ρ p c) defs₀ 𝒱₀ () Set.univ)
    (hi : ∀ c, Pipeline.ΦA (cfgs p).spec c ⊢ (pdats m ρ p c).Φ 0)
    (ho : ∀ c, (pdats m ρ p c).Φ (Fin.last (cfgs p).N) ⊢ Pipeline.ΦA (cfgs p).spec c) :
    Pipeline.RegionSeg pcfgs adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (W c) ∗ R c)
  post c := iprop(StableHlo.held (c : Thread nD τ) (Pipeline.ucRefs τ sig)
    (Pipeline.withArrays (cfgs p).spec c (W c) fun w => (pdats m ρ p c).arrAt w (cfgs p).N) ∗ R c)
  X c := iprop(∃ r, prngReg c r)
  Y c := iprop(∃ r, prngReg c r)
  Z c := Pipeline.unscopedRest (cfgs p).spec c (fun b => W c b)
  hentry c := by
    have hsplit := Pipeline.arrays_of_unscopedBufs (p := p) pcfgs adm (pdats m ρ) lf.win lf.arr_whole c
      ((pdats m ρ p c).share_full (hq c)) (fun b => W c b) (hA c)
    rw [Pipeline.unscopedBufs_held] at hsplit
    rw [owes_point _ 0 (h0 c 0) (hr c 0)]
    iintro ⟨⟨Hub, Hp, HO⟩, -⟩
    ihave H := hsplit $$ Hub
    icases H with ⟨Ha, Hrest⟩
    imodintro
    iframe
    unfold Pipeline.prefHeld; rw [show (Finset.univ : Finset (Fin 0)) = ∅ from rfl, BI.bigSep_empty]; iempintro
  hin c := ((sep_mono_r ((sep_mono_l affine).trans emp_sep_elim)).trans sep_comm).trans (hi c)
  hout c := by
    rw [Pipeline.ownSems0_none]
    exact (ho c).trans (sep_comm.trans (sep_mono_r emp_sep_intro))
  hexit c := by
    have hjoin := Pipeline.unscopedBufs_of_arrays (p := p) pcfgs adm
      lf.win lf.arr_whole c (pdats m ρ) ((pdats m ρ p c).share_full (hq c))
      (fun b => W c b) (fun b => Pipeline.withArrays (cfgs p).spec c (W c) (fun w => (pdats m ρ p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    rw [owes_point _ _ (h0 c _) (hr c _)]
    iintro ⟨Ha, HO, HY, Hrest⟩
    imodintro
    isplitl [Ha Hrest]
    · iapply hjoin; iframe
    isplitl [HY] <;> iassumption

set_option backward.isDefEq.respectTransparency.types false in
abbrev segs : List (Pipeline.Seg pcfgs adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg m ρ launch0 (W3 m ρ) (fun _ _ => rfl) (fun _ _ => rfl) (fun _ _ => rfl) (A_eq0 _) (body_obligation0 _) (PhiIn0 _) (PhiOut0 _)),
    .region (reg m ρ launch1 (W4 m ρ) (fun _ _ => rfl) (fun _ _ => rfl) (fun _ _ => rfl) (A_eq1 _) (body_obligation1 _) (PhiIn1 _) (PhiOut1 _)),
    .host (hseg hostOps2 hostOps2_sub hostOps2_fresh (W5 m ρ)),
    .region (reg m ρ launch2 (W6 m ρ) (fun _ _ => rfl) (fun _ _ => rfl) (fun _ _ => rfl) (A_eq2 _) (body_obligation2 _) (PhiIn2 _) (PhiOut2 _)),
    .region (reg m ρ launch3 (W7 m ρ) (fun _ _ => rfl) (fun _ _ => rfl) (fun _ _ => rfl) (A_eq3 _) (body_obligation3 _) (PhiIn3 _) (PhiOut3 _)),
    .host (hseg hostOps4 hostOps4_sub hostOps4_fresh (W8 m ρ)),
    .region (reg m ρ launch4 (W9 m ρ) (fun _ _ => rfl) (fun _ _ => rfl) (fun _ _ => rfl) (A_eq4 _) (body_obligation4 _) (PhiIn4 _) (PhiOut4 _)) ]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit pcfgs adm (pdats m ρ) () cellOf_inj emb₁ defs₀ 𝒱₀ L lv m ρ main (segs m ρ)
    (fun c _ => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W10 m ρ c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c _ = _ from Pipeline.unscopedBufs_held c (W0 m ρ c)]
      iintro ⟨⟨Hh, -, HO, -, Hp, -⟩, -⟩
      imodintro
      iframe
      isplitl [Hp] <;> iexists _ <;> iassumption)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

end Cert.KernelIdeal.Hand

end
-- ==== Proof.KI.Keep.lean ====
import proofs.«425851_j42021960024258_2_alg».proof.Proof.KI.Fold
import proofs.«425851_j42021960024258_2_alg».proof.Proof.Gen.KernelIdeal.Regions
import Idealize.ShloMosaic.Lib.StableHlo.RunLoop

noncomputable section

namespace Cert.KernelIdeal.Hand

open Cert.KernelIdeal Cert.KernelIdeal.Gen
open Idealize.ShloMosaic Idealize.ShloMosaic.TcCoe

variable {F : FTy → Type} [FloatOps F] [Named F]

variable (m : (ℓ : Loc nD τ sig) → Buf (Elt F) ℓ) (ρ : Dev nD → PrngReg)

theorem W9_keep (c : Dev nD) (r : Ref sig .tc) (h1 : r ∉ hostOps0_W := by decide) (h2 : r ∉ hostOps0_1_W := by decide)
    (h3 : r ∉ hostOps0_2_W := by decide) (h4 : ∀ w, Pipeline.arrRef spec0 w ≠ r := by decide)
    (h5 : ∀ w, Pipeline.arrRef spec1 w ≠ r := by decide) (h6 : r ∉ hostOps2_W := by decide)
    (h7 : ∀ w, Pipeline.arrRef spec2 w ≠ r := by decide) (h8 : ∀ w, Pipeline.arrRef spec3 w ≠ r := by decide)
    (h9 : r ∉ hostOps4_W := by decide) : W9 m ρ c (Proc.devRef .tc r) = m ((c : Thread nD τ).loc r) :=
  (StableHlo.after_of_writes_sub hostOps4 _ hostOps4_writes h9).trans <| (W8_of_ne m ρ c r h8).trans <|
  (W7_of_ne m ρ c r h7).trans <| (StableHlo.after_of_writes_sub hostOps2 _ hostOps2_writes h6).trans <|
  (W5_of_ne m ρ c r h5).trans <| (W4_of_ne m ρ c r h4).trans <| (V3_of m c r h3).trans <| (V2_of m c r h2).trans (V1_of m c r h1)

theorem W10_main_arg0 (c : Dev nD) : W10 m ρ c (Proc.devRef .tc main_arg0) = m ((c : Thread nD τ).loc main_arg0) :=
  (W10_arr m ρ c 1).trans <| ((dat4 (V9 m ρ) c).arrAt_in 1 rfl _).trans <| (A_eq4 (V9 m ρ) c 1).trans (W9_keep m ρ c _)
theorem W10_main_arg1 (c : Dev nD) : W10 m ρ c (Proc.devRef .tc main_arg1) = m ((c : Thread nD τ).loc main_arg1) :=
  (W10_of_ne m ρ c _ (by decide)).trans (W9_keep m ρ c _)
theorem W10_main_arg2 (c : Dev nD) : W10 m ρ c (Proc.devRef .tc main_arg2) = m ((c : Thread nD τ).loc main_arg2) :=
  (W10_of_ne m ρ c _ (by decide)).trans (W9_keep m ρ c _)
theorem W10_main_arg3 (c : Dev nD) : W10 m ρ c (Proc.devRef .tc main_arg3) = m ((c : Thread nD τ).loc main_arg3) :=
  (W10_of_ne m ρ c _ (by decide)).trans (W9_keep m ρ c _)
theorem W10_main_arg4 (c : Dev nD) : W10 m ρ c (Proc.devRef .tc main_arg4) = m ((c : Thread nD τ).loc main_arg4) :=
  (W10_of_ne m ρ c _ (by decide)).trans (W9_keep m ρ c _)
theorem W10_main_arg5 (c : Dev nD) : W10 m ρ c (Proc.devRef .tc main_arg5) = m ((c : Thread nD τ).loc main_arg5) :=
  (W10_of_ne m ρ c _ (by decide)).trans (W9_keep m ρ c _)
theorem W10_main_arg6 (c : Dev nD) : W10 m ρ c (Proc.devRef .tc main_arg6) = m ((c : Thread nD τ).loc main_arg6) :=
  (W10_of_ne m ρ c _ (by decide)).trans (W9_keep m ρ c _)

end Cert.KernelIdeal.Hand

end
-- ==== Proof.KI.Frame.lean ====
import proofs.«425851_j42021960024258_2_alg».proof.Proof.KI.Run
import proofs.«425851_j42021960024258_2_alg».proof.Proof.KI.Keep

noncomputable section

namespace Cert.KernelIdeal.Hand

open Cert.KernelIdeal Cert.KernelIdeal.Gen
open Idealize.ShloMosaic Idealize.ShloMosaic.TcCoe Idealize.SL.Sem

variable {F : FTy → Type} [FloatOps F] [Named F]

variable (m : (ℓ : Loc nD τ sig) → Buf (Elt F) ℓ) (ρ : Dev nD → PrngReg)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    have k := fun b hb => h c _ (StableHlo.devRef_mem_ucRefs (τ := τ) b hb)
    ⟨(k main_arg0 rfl).trans (W10_main_arg0 m ρ c), (k main_arg1 rfl).trans (W10_main_arg1 m ρ c),
     (k main_arg2 rfl).trans (W10_main_arg2 m ρ c), (k main_arg3 rfl).trans (W10_main_arg3 m ρ c),
     (k main_arg4 rfl).trans (W10_main_arg4 m ρ c), (k main_arg5 rfl).trans (W10_main_arg5 m ρ c),
     (k main_arg6 rfl).trans (W10_main_arg6 m ρ c)⟩) (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨2, ![10000, 1280]⟩

abbrev SE : Shape := ⟨1, ![160000]⟩

abbrev SI : Shape := ⟨2, ![2, 160000]⟩

abbrev SW : Shape := ⟨2, ![1280, 1280]⟩

abbrev SB : Shape := ⟨1, ![1280]⟩

def ew (ef : SE.Idx → EReal) (e : Fin 160000) : EReal :=
  Ideal.div (Ideal.ofBits .f32 0x3F800000#32) (ef (ix1 e) * ef (ix1 e) + Ideal.ofBits .f32 0x358637BD#32)

def srcOf (ei : SI.Idx → BitVec 32) (e : Fin 160000) : Fin 10000 :=
  ⟨min (ei (ix2 0 e)).toInt.toNat 9999, by omega⟩

def agg (x : Fin 10000 → Fin 1280 → EReal) (ef : SE.Idx → EReal) (ei : SI.Idx → BitVec 32) (r : Fin 10000) (d : Fin 1280) : EReal :=
  ∑ e ∈ Finset.univ.filter (fun e : Fin 160000 => (ei (ix2 1 e)).toInt = (r.val : ℤ)), x (srcOf ei e) d * ew ef e

def layer (x : Fin 10000 → Fin 1280 → EReal) (ef : SE.Idx → EReal) (ei : SI.Idx → BitVec 32)
    (W : SW.Idx → EReal) (b : SB.Idx → EReal) (r : Fin 10000) (d : Fin 1280) : EReal :=
  (∑ k : Fin 1280, (x r k + agg x ef ei r k) * W (ix2 d k)) + b (ix1 d)

def out (nf : SN.Idx → EReal) (ef : SE.Idx → EReal) (ei : SI.Idx → BitVec 32)
    (W1 : SW.Idx → EReal) (b1 : SB.Idx → EReal) (W2 : SW.Idx → EReal) (b2 : SB.Idx → EReal) (d : Fin 1280) : EReal :=
  (∑ r : Fin 10000,
      (layer (layer (fun r k => nf (ix2 r k)) ef ei W1 b1) ef ei W2 b2 r d + nf (ix2 r d))) * ((1 / 10000 : ℝ) : EReal)

end Cert.Spec

end
-- ==== Proof.Consts.lean ====
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

def eps : ℝ := 8796093 * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee, -EReal.coe_mul, eps]

end Cert.Consts

end
-- ==== Proof.Math.Scatter.lean ====
import proofs.«425851_j42021960024258_2_alg».proof.Proof.Gen.KernelIdeal
import proofs.«425851_j42021960024258_2_alg».proof.Proof.Gen.ReferenceIdeal
import Idealize.ShloMosaic.Lib.ValueIdxRank1
import Idealize.ShloMosaic.PureOps.Ideal

noncomputable section

namespace Cert.Bridge

open Idealize.ShloMosaic Idealize.ShloMosaic.ValueIdx

-- An update lands on `i` exactly when start plus window coordinate is `i`'s coordinate on every axis.
theorem lands_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h, Option.some_inj, funext_iff]
    refine forall_congr' fun a => ?_
    have := h a
    rw [Fin.ext_iff]
    simp only
    omega
  · rw [dif_neg h]
    refine iff_of_false nofun fun hall => h fun a => ?_
    have := hall a
    have := (i a).isLt
    omega

section Adj
open Cert.KernelIdeal

local notation "dA" => Cert.KernelIdeal.scatter_S10240x10240_S160000x2_S160000_n_01_01_1

theorem adj_lands (idx : IVec S160000x2 32) (e : Fin 160000) (r j : Fin 10240) :
    (dA).resultIdx? (ix1 e) idx = some (ix2 r j)
      ↔ (idx (ix2 e 0)).toInt = (r.val : ℤ) ∧ (idx (ix2 e 1)).toInt = (j.val : ℤ) := by
  have hs : ∀ c, (dA).siIdx (ix1 e) c = ix2 e c := fun c => by
    funext b; match b with | ⟨0, _⟩ => rfl | ⟨1, _⟩ => rfl
  have hw : ∀ a, (dA).window (ix1 e) a = 0 := fun a => dif_neg (List.not_mem_nil (a := a))
  have h0 : (dA).start (ix1 e) idx 0 = (idx (ix2 e 0)).toInt := (dif_pos (by decide)).trans (by rw [hs]; rfl)
  have h1 : (dA).start (ix1 e) idx 1 = (idx (ix2 e 1)).toInt := (dif_pos (by decide)).trans (by rw [hs]; rfl)
  simp [lands_iff, Fin.forall_fin_two, h0, h1, hw]

theorem adj_read (x : S10240x10240.Idx → EReal) (idx : IVec S160000x2 32) (u : S160000.Idx → EReal) (r j : Fin 10240) :
    Host.scatterAdd (F := Ideal) (φ := .f32) dA x idx u (ix2 r j)
      = x (ix2 r j) + ∑ e ∈ Finset.univ.filter (fun e : Fin 160000 =>
          (idx (ix2 e 0)).toInt = (r.val : ℤ) ∧ (idx (ix2 e 1)).toInt = (j.val : ℤ)), u (ix1 e) := by
  refine congrArg (x (ix2 r j) + ·) (Finset.sum_equiv idxEquiv1.symm (fun e => ?_) fun _ _ => rfl).symm
  simp only [Finset.mem_filter, Finset.mem_univ, true_and]
  exact (adj_lands idx e r j).symm

end Adj

section Seg
open Cert.ReferenceIdeal

local notation "dS" => Cert.ReferenceIdeal.scatter_S10000x1280_S160000x1_S160000x1280_1_0_0_1

theorem seg_lands (idx : IVec S160000x1 32) (e : Fin 160000) (d' : Fin 1280) (r : Fin 10000) (d : Fin 1280) :
    (dS).resultIdx? (ix2 e d') idx = some (ix2 r d) ↔ d' = d ∧ (idx (ix2 e 0)).toInt = (r.val : ℤ) := by
  have hs : (dS).siIdx (ix2 e d') ⟨0, by decide⟩ = ix2 e 0 := by
    funext b; match b with | ⟨0, _⟩ => rfl | ⟨1, _⟩ => rfl
  have h0 : (dS).start (ix2 e d') idx 0 = (idx (ix2 e 0)).toInt :=
    (dif_pos (by decide)).trans (congrArg (fun i => (idx i).toInt) hs)
  have h1 : (dS).start (ix2 e d') idx 1 = 0 := dif_neg (by decide)
  have w0 : (dS).window (ix2 e d') 0 = 0 := dif_neg (by decide)
  have w1 : (dS).window (ix2 e d') 1 = d'.val := dif_pos (by decide)
  rw [lands_iff, Fin.forall_fin_two, h0, h1, w0, w1, and_comm, Fin.ext_iff]
  simp

theorem seg_read (x : S10000x1280.Idx → EReal) (idx : IVec S160000x1 32) (u : S160000x1280.Idx → EReal)
    (r : Fin 10000) (d : Fin 1280) :
    Host.scatterAdd (F := Ideal) (φ := .f32) dS x idx u (ix2 r d)
      = x (ix2 r d) + ∑ e ∈ Finset.univ.filter (fun e : Fin 160000 => (idx (ix2 e 0)).toInt = (r.val : ℤ)),
          u (ix2 e d) := by
  show _ + ∑ k ∈ Finset.univ.filter (fun k => (dS).resultIdx? k idx = some (ix2 r d)), u k = _
  simp only [Finset.sum_filter, sum_idx2, seg_lands, ite_and, Finset.sum_ite_eq', Finset.mem_univ, if_true]

local notation "dG" => Cert.ReferenceIdeal.gather_S10000x1280_S160000x1_S160000x1280_1_0_n_n_0_1_11280

-- Inside the table the clamp is the identity.
theorem gather_read (x : S10000x1280.Idx → EReal) (idx : IVec S160000x1 32) (e : Fin 160000) (d : Fin 1280)
    (n : Fin 10000) (h : (idx (ix2 e 0)).toInt = (n.val : ℤ)) :
    Host.gather dG x idx (ix2 e d) = x (ix2 n d) := by
  have hs : ∀ c, (dG).siIdx (ix2 e d) c = ix2 e 0 := fun c => by
    funext b; match b with | ⟨0, _⟩ => rfl | ⟨1, _⟩ => exact Fin.ext (Nat.lt_one_iff.1 c.isLt)
  have h0 : (dG).start (ix2 e d) idx 0 = n.val := (dif_pos (by decide)).trans (by
    rw [hs, h, Int.toNat_natCast]; exact min_eq_left (Nat.le_pred_of_lt n.isLt))
  refine congrArg x (funext fun a => Fin.ext ?_)
  match a with
  | ⟨0, _⟩ => exact (congrArg (· + _ + _) h0 : _)
  | ⟨1, _⟩ => exact (Nat.zero_add _ : _)

end Seg

end Cert.Bridge
-- ==== Proof.Ref.Value.lean ====
import proofs.«425851_j42021960024258_2_alg».proof.Proof.Gen.ReferenceIdeal.Read
import proofs.«425851_j42021960024258_2_alg».proof.Proof.Spec
import proofs.«425851_j42021960024258_2_alg».proof.Proof.Consts
import proofs.«425851_j42021960024258_2_alg».proof.Proof.Math.Scatter
import Idealize.ShloMosaic.Lib.DynamicIndex

noncomputable section

namespace Cert.ReferenceIdeal.RefValue

open Cert.ReferenceIdeal Cert.ReferenceIdeal.Read Idealize.ShloMosaic Idealize.ShloMosaic.ValueIdx Cert.Bridge

variable (x0 : (⟨S10000x1280, .f32⟩ : BufTy).Contents (Elt Ideal)) (x1 : (⟨S160000, .f32⟩ : BufTy).Contents (Elt Ideal))
  (x2 : (⟨S2x160000, .i32⟩ : BufTy).Contents (Elt Ideal)) (x3 : (⟨S1280x1280, .f32⟩ : BufTy).Contents (Elt Ideal))
  (x4 : (⟨S1280, .f32⟩ : BufTy).Contents (Elt Ideal)) (x5 : (⟨S1280x1280, .f32⟩ : BufTy).Contents (Elt Ideal))
  (x6 : (⟨S1280, .f32⟩ : BufTy).Contents (Elt Ideal))

theorem rows (i : S160000.Idx) :
    val_main_v1 (F := Ideal) x2 i = x2 (ix2 0 (i 0)) ∧ val_main_v3 (F := Ideal) x2 i = x2 (ix2 1 (i 0)) := by
  rw [val_main_v1_apply, val_main_v0_apply, val_main_v3_apply, val_main_v2_apply]
  constructor <;> refine congrArg x2 (funext fun a => Fin.ext ?_) <;> match a with
    | ⟨0, _⟩ => rfl
    | ⟨1, _⟩ => exact Nat.mod_eq_of_lt (i 0).isLt

-- A source word that is not negative is kept by the wrap-around select.
theorem src_read (e : Fin 160000) (h : 0 ≤ (x2 (ix2 0 e)).toInt) :
    val_main_v14 (F := Ideal) x2 (ix2 e (0 : Fin 1)) = x2 (ix2 0 e) := by
  rw [val_main_v14_apply]
  exact (select_slt_zero_of_nonneg _ _ _ _ (by rw [(rows x2 _).1]; exact h)).trans (rows x2 _).1

theorem weight_read (e : Fin 160000) (k : Fin 1280) : val_main_v17 (F := Ideal) x1 (ix2 e k) = Cert.Spec.ew x1 e := by
  rw [val_main_v17_apply, val_main_v16_apply, show idx_main_v16 (idx_main_v17 (ix2 e k)) = ix1 e from eq_ix1 _,
    val_main_v8_apply, val_main_v7_apply, val_main_cst_0_apply, val_main_v6_apply, val_main_v4_apply, val_main_v5_apply,
    val_main_cst_apply]
  rfl

variable (hsrc : ∀ e : Fin 160000, 0 ≤ (x2 (ix2 0 e)).toInt ∧ (x2 (ix2 0 e)).toInt < 10000)
include hsrc

-- The segment sum over the destination column of the weighted source rows.
theorem agg_read (r : Fin 10000) (k : Fin 1280) :
    val_main_v21 (F := Ideal) x0 x1 x2 (ix2 r k) = Cert.Spec.agg (fun r k => x0 (ix2 r k)) x1 x2 r k := by
  refine (seg_read _ _ _ r k).trans ?_
  rw [val_main_v19_apply, val_main_cst_2_apply, Ideal.ofBits_def, Ideal.ofBits_zero_f32, zero_add]
  refine Finset.sum_congr (Finset.filter_congr fun e _ => by rw [val_main_v20_apply, (rows x2 _).2]; rfl) fun e _ => ?_
  obtain ⟨h0, h1⟩ := hsrc e
  rw [val_main_v18_apply, Ideal.mulf_def, weight_read]
  refine congrArg (· * _) (gather_read x0 _ e k (Cert.Spec.srcOf x2 e) ?_)
  rw [src_read x2 e h0]
  show _ = ((min _ 9999 : ℕ) : ℤ)
  omega

-- One layer over any node features: (x + agg x) · Wᵀ + b.
theorem layer_read (r : Fin 10000) (d : Fin 1280) :
    val_main_v27 (F := Ideal) x0 x1 x2 x3 x4 (ix2 r d) = Cert.Spec.layer (fun r k => x0 (ix2 r k)) x1 x2 x3 x4 r d := by
  rw [val_main_v27_apply, val_main_v24_apply, val_main_v26_apply, val_main_v25_apply, Ideal.addf_def]
  refine congrArg₂ (· + ·) (Finset.sum_congr rfl fun k _ => ?_) (congrArg x4 (eq_ix1 _))
  rw [val_main_v22_apply, val_main_v23_apply, Ideal.addf_def, show lidx_main_v24 (ix2 r d) k = ix2 r k from eq_ix2 _,
    agg_read x0 x1 x2 hsrc, show idx_main_v23 (ridx_main_v24 (ix2 r d) k) = ix2 d k from eq_ix2 _]

-- The second layer is the first over the first's output; the mean is the sum times the reciprocal.
theorem ref_out (d : Fin 1280) :
    val_main_v51 (F := Ideal) x0 x1 x2 x3 x4 x5 x6 (ix2 0 d) = Cert.Spec.out x0 x1 x2 x3 x4 x5 x6 d := by
  rw [val_main_v51_apply, val_main_v49_apply, val_main_v48_apply, val_main_cst_6_apply, val_main_v50_apply,
    val_main_cst_7_apply, Ideal.hostDivf_def, Ideal.ofBits_def, Ideal.ofBits_def, Ideal.ofBits_zero_f32, zero_add,
    Cert.Consts.ofBits_10000, Ideal.div_coe (by norm_num : (10000 : ℝ) ≠ 0)]
  refine congrArg (· * _) (Finset.sum_congr rfl fun r _ => ?_)
  rw [show idx_main_v48 (idx_main_v49 (ix2 0 d)) r = ix2 r d from eq_ix2 _, val_main_v47_apply, Ideal.addf_def]
  exact congrArg (· + _) ((layer_read _ x1 x2 x5 x6 hsrc r d).trans
    (by rw [funext₂ (layer_read x0 x1 x2 x3 x4 hsrc)]))

end Cert.ReferenceIdeal.RefValue

end
-- ==== Proof.Pre.lean ====
import proofs.«425851_j42021960024258_2_alg».proof.Pre_finite_inputs
import proofs.«425851_j42021960024258_2_alg».proof.Proof.Gen.Pre_finite_inputs
import Idealize.ShloMosaic.Lib.ReduceAll
import Idealize.ShloMosaic.Lib.ValueIdx
import Idealize.ShloMosaic.PureOps.Ideal

set_option maxRecDepth 16384

noncomputable section

namespace Cert.PreDecode

open Idealize.ShloMosaic Idealize.ShloMosaic.ValueIdx
open Cert.Pre_finite_inputs Cert.Pre_finite_inputs.Gen

instance : Subsingleton S_.Idx := ⟨fun a b => funext fun d => d.elim0⟩

theorem real_of_abs_lt_inf (x : EReal)
    (h : Ideal.cmp .olt (max x (-x)) (Ideal.ofBits .f32 0x7F800000#32) = 1#1) : ∃ y : ℝ, x = (y : EReal) := by
  rw [show Ideal.ofBits .f32 0x7F800000#32 = (⊤ : EReal) by simp [Ideal.ofBits, Ideal.ieee]] at h
  induction x using EReal.rec with
  | coe y => exact ⟨y, rfl⟩
  | _ => exact absurd h (by simp [Ideal.cmp])

theorem row0_read (a2 : IVec S2x160000 32) (hs : S2x160000.Slices ![0, 0] S1x160000) (hc : S1x160000.ShapeCasts S160000)
    (e : Fin 160000) :
    shapeCast S160000 (extractStridedSlice S1x160000 ![0, 0] a2 hs) hc (ix1 e) = a2 (ix2 0 e) := by
  unfold shapeCast extractStridedSlice
  rw [show Shape.reshapeEquiv hc (ix1 e) = (ix2 (0 : Fin 1) e : S1x160000.Idx) from
    Shape.reshapeEquiv_eq_of_rowMajor hc (by rw [Shape.rowMajor_val_two, Shape.rowMajor_val_one]; simp)]
  congr 1
  funext a
  match a with
  | ⟨0, _⟩ => rfl
  | ⟨1, _⟩ => apply Fin.ext; simp

theorem pre_decode (a0 : FVec Ideal S10000x1280 .f32) (a1 : FVec Ideal S160000 .f32) (a2 : IVec S2x160000 32)
    (a3 : FVec Ideal S1280x1280 .f32) (a4 : FVec Ideal S1280 .f32) (a5 : FVec Ideal S1280x1280 .f32)
    (a6 : FVec Ideal S1280 .f32)
    (h : Cert.Pre_finite_inputs.fn (F := Ideal) a0 a1 a2 a3 a4 a5 a6 = fun _ => 1#1) :
    (∀ i, ∃ y : ℝ, a0 i = (y : EReal)) ∧ (∀ i, ∃ y : ℝ, a1 i = (y : EReal)) ∧ (∀ i, ∃ y : ℝ, a3 i = (y : EReal)) ∧
    (∀ i, ∃ y : ℝ, a4 i = (y : EReal)) ∧ (∀ i, ∃ y : ℝ, a5 i = (y : EReal)) ∧ (∀ i, ∃ y : ℝ, a6 i = (y : EReal)) ∧
    (∀ i : Cert.Pre_finite_inputs.S2x160000.Idx, 0 ≤ (a2 i).toInt) ∧
    (∀ e : Fin 160000, (a2 (ix2 0 e)).toInt < 10000) := by
  have h0 := congrFun h ix0
  dsimp only [fn, fn_part1, fn_part2] at h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨r1, r2⟩ := IntOp.andi_eq_one.1 h0
  have fin {s : Shape} {x : FVec Ideal s .f32} {i : s.Idx}
      (hx : Ideal.cmp .olt (max (x i) (-(x i))) (Ideal.ofBits .f32 0x7F800000#32) = 1#1) := real_of_abs_lt_inf (x i) hx
  refine ⟨fun i => fin (Host.reduce_andi_all _ _ _ _ _ r1 i), fun i => fin (Host.reduce_andi_all _ _ _ _ _ r2 i),
    fun i => fin (Host.reduce_andi_all _ _ _ _ _ r3 i), fun i => fin (Host.reduce_andi_all _ _ _ _ _ r4 i),
    fun i => fin (Host.reduce_andi_all _ _ _ _ _ r5 i), fun i => fin (Host.reduce_andi_all _ _ _ _ _ r6 i),
    fun i => ?_, fun e => ?_⟩
  · have := IntOp.cmpi_sge.1 (Host.reduce_andi_all _ _ _ _ _ r7 i)
    change (0#32 : BitVec 32).toInt ≤ (a2 i).toInt at this
    simpa using this
  · have := IntOp.cmpi_slt.1 (Host.reduce_andi_all _ _ _ _ _ r8 (ix1 e))
    rw [row0_read] at this
    change (a2 (ix2 0 e)).toInt < (10000#32 : BitVec 32).toInt at this
    rwa [show (10000#32 : BitVec 32).toInt = 10000 by decide] at this

end Cert.PreDecode

end
-- ==== Proof.Math.Layer.lean ====
import Mathlib.Data.EReal.Basic
import Mathlib.Algebra.BigOperators.Ring.Finset
import Mathlib.Algebra.BigOperators.Group.Finset.Basic

namespace Cert.Bridge

def IsReal (x : EReal) : Prop := ∃ y : ℝ, x = (y : EReal)

namespace IsReal

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem sum {ι : Type*} (s : Finset ι) (f : ι → EReal) (h : ∀ i ∈ s, IsReal (f i)) :
    IsReal (∑ i ∈ s, f i) :=
  Finset.sum_induction f IsReal (fun _ _ => add) ⟨0, rfl⟩ h

end IsReal

-- Multiplication distributes over a sum of reals; an empty sum needs nothing of the factor.
theorem sum_mul_of_isReal {ι : Type*} (S : Finset ι) (w : ι → EReal)
    (hw : ∀ e ∈ S, IsReal (w e)) (x : EReal) (hx : S.Nonempty → IsReal x) :
    (∑ e ∈ S, w e) * x = ∑ e ∈ S, x * w e := by
  classical
  induction S using Finset.induction_on with
  | empty => simp
  | insert a s ha ih =>
    have hs := fun i hi => hw i (Finset.mem_insert_of_mem hi)
    obtain ⟨y, rfl⟩ := hx (Finset.insert_nonempty a s)
    obtain ⟨u, hu⟩ := hw a (Finset.mem_insert_self a s)
    obtain ⟨v, hv⟩ := IsReal.sum s w hs
    rw [Finset.sum_insert ha, Finset.sum_insert ha, ← ih hs fun _ => ⟨y, rfl⟩, hu, hv]
    norm_cast
    ring

-- Row r of the dense table times a column is the edge-list sum: fibre the edges over their source node.
theorem adj_mul_sum {E NP : ℕ} (N : ℕ) (hN : N ≤ NP) (w : Fin E → EReal)
    (hw : ∀ e, IsReal (w e)) (s t : Fin E → ℤ) (hs : ∀ e, 0 ≤ s e ∧ s e < N)
    (X : Fin NP → EReal) (hX : ∀ j : Fin NP, j.val < N → IsReal (X j)) (r : ℤ) :
    ∑ j : Fin NP, ((0 : EReal) +
        ∑ e ∈ Finset.univ.filter (fun e : Fin E => t e = r ∧ s e = (j.val : ℤ)), w e) * X j
      = ∑ e ∈ Finset.univ.filter (fun e : Fin E => t e = r),
          X ⟨(s e).toNat, by have := hs e; omega⟩ * w e := by
  refine Eq.trans ?_ (Finset.sum_fiberwise _ (fun e => (⟨(s e).toNat, by have := hs e; omega⟩ : Fin NP)) _)
  refine Finset.sum_congr rfl fun j _ => ?_
  rw [zero_add, Finset.filter_filter, sum_mul_of_isReal _ _ fun e _ => hw e]
  · refine Finset.sum_congr (Finset.filter_congr fun e _ => and_congr_right fun _ => ?_) fun e he =>
      congrArg (X · * w e) (Finset.mem_filter.1 he).2.2.symm
    have := hs e
    rw [Fin.ext_iff]
    show _ ↔ (s e).toNat = j.val
    omega
  · rintro ⟨e, he⟩
    have := hs e
    have := (Finset.mem_filter.1 he).2.2
    exact hX j (by omega)

end Cert.Bridge
-- ==== Proof.Math.Net.lean ====
import proofs.«425851_j42021960024258_2_alg».proof.Proof.Spec
import proofs.«425851_j42021960024258_2_alg».proof.Proof.Consts
import proofs.«425851_j42021960024258_2_alg».proof.Proof.Math.Layer

noncomputable section

namespace Cert.Bridge

open Idealize.ShloMosaic Idealize.ShloMosaic.ValueIdx Cert.Spec

abbrev up (r : Fin 10000) : Fin 10240 := ⟨r.val, by have := r.isLt; omega⟩

def dlayer (A : Fin 10240 → Fin 10240 → EReal) (X : Fin 10240 → Fin 1280 → EReal) (W : SW.Idx → EReal) (b : SB.Idx → EReal)
    (r : Fin 10240) (d : Fin 1280) : EReal :=
  (∑ k : Fin 1280, (X r k + ∑ j : Fin 10240, A r j * X j k) * W (ix2 d k)) + b (ix1 d)

section

variable (ef : SE.Idx → EReal) (ei : SI.Idx → BitVec 32)
variable (hef : ∀ i, IsReal (ef i))
variable (hnn : ∀ i, 0 ≤ (ei i).toInt) (hsrc : ∀ e : Fin 160000, (ei (ix2 0 e)).toInt < 10000)

include hef in
-- The weight is a quotient of reals by a positive real.
theorem ew_real (e : Fin 160000) : IsReal (ew ef e) := by
  obtain ⟨y, hy⟩ := hef (ix1 e)
  unfold ew
  rw [hy, Cert.Consts.ofBits_one, Cert.Consts.ofBits_eps, ← EReal.coe_mul, ← EReal.coe_add,
    Ideal.div_coe (ne_of_gt (add_pos_of_nonneg_of_pos (mul_self_nonneg y) Cert.Consts.eps_pos)), ← EReal.coe_mul]
  exact ⟨_, rfl⟩

variable (A : Fin 10240 → Fin 10240 → EReal)
variable (hA : ∀ r j : Fin 10240, A r j = (0 : EReal) + ∑ e ∈ Finset.univ.filter (fun e : Fin 160000 =>
    (ei (ix2 1 e)).toInt = (r.val : ℤ) ∧ (ei (ix2 0 e)).toInt = (j.val : ℤ)), ew ef e)

include hef hnn hsrc hA in
-- On a real node row the dense layer is the edge-list layer: the table's row times a column is the aggregation.
theorem dlayer_eq (X : Fin 10240 → Fin 1280 → EReal) (x : Fin 10000 → Fin 1280 → EReal) (hx : ∀ r k, IsReal (x r k))
    (hXx : ∀ (r : Fin 10000) (k : Fin 1280), X (up r) k = x r k) (W : SW.Idx → EReal) (b : SB.Idx → EReal)
    (r : Fin 10000) (d : Fin 1280) : dlayer A X W b (up r) d = layer x ef ei W b r d := by
  refine congrArg (· + _) (Finset.sum_congr rfl fun k _ => ?_)
  rw [hXx r k]
  refine congrArg (fun t => (_ + t) * _) ((Finset.sum_congr rfl fun j _ => congrArg (· * X j k) (hA (up r) j)).trans
    ((adj_mul_sum 10000 (by norm_num) (ew ef) (ew_real ef hef) (fun e => (ei (ix2 0 e)).toInt)
      (fun e => (ei (ix2 1 e)).toInt) (fun e => ⟨hnn _, by exact_mod_cast hsrc e⟩) (fun j => X j k)
      (fun j hj => (congrArg IsReal (hXx ⟨j.val, hj⟩ k)).mpr (hx _ k)) (r.val : ℤ)).trans
      (Finset.sum_congr rfl fun e _ => ?_)))
  have := hnn (ix2 0 e)
  have := hsrc e
  rw [← hXx]
  exact congrArg (fun i => X i k * ew ef e) (Fin.ext (by show (ei (ix2 0 e)).toInt.toNat = min _ 9999; omega))

include hef hnn hsrc hA in
theorem net_eq (nf : SN.Idx → EReal) (hnf : ∀ i, IsReal (nf i)) (Fp : Fin 10240 → Fin 1280 → EReal)
    (hFp : ∀ (r : Fin 10000) (k : Fin 1280), Fp (up r) k = nf (ix2 r k))
    (W1 : SW.Idx → EReal) (hW1 : ∀ i, IsReal (W1 i)) (b1 : SB.Idx → EReal) (hb1 : ∀ i, IsReal (b1 i))
    (W2 : SW.Idx → EReal) (b2 : SB.Idx → EReal) (d : Fin 1280) :
    (∑ r : Fin 10000, (dlayer A (dlayer A Fp W1 b1) W2 b2 (up r) d + nf (ix2 r d))) * ((1 / 10000 : ℝ) : EReal)
      = out nf ef ei W1 b1 W2 b2 d := by
  refine congrArg (· * _) (Finset.sum_congr rfl fun r _ => congrArg (· + _) ?_)
  exact dlayer_eq ef ei hef hnn hsrc A hA _ (layer (fun r k => nf (ix2 r k)) ef ei W1 b1)
    (fun r k => (IsReal.sum _ _ fun k _ => ((hnf _).add
      (IsReal.sum _ _ fun e _ => (hnf _).mul (ew_real ef hef e))).mul (hW1 _)).add (hb1 _))
    (fun r k => dlayer_eq ef ei hef hnn hsrc A hA Fp _ (fun _ _ => hnf _) hFp W1 b1 r k) W2 b2 r d

end

end Cert.Bridge

end
-- ==== Proof.Val.Host.lean ====
import proofs.«425851_j42021960024258_2_alg».proof.Proof.Gen.KernelIdeal.Launch
import proofs.«425851_j42021960024258_2_alg».proof.Proof.Gen.KernelIdeal.Regions
import Idealize.ShloMosaic.Lib.StableHlo.Run
import Idealize.ShloMosaic.Lib.ValueIdx
import Idealize.ShloMosaic.Lib.ValueLayout
import Idealize.ShloMosaic.Lib.KernelVsHost

noncomputable section

namespace Cert.KernelIdeal.HandVal

open Cert.KernelIdeal Cert.KernelIdeal.Gen
open Idealize.ShloMosaic Idealize.ShloMosaic.TcCoe Idealize.ShloMosaic.ValueIdx Idealize.SL.Sem Idealize.ShloMosaic.StableHlo

variable (U : Valuation τ sig (Elt Ideal))

theorem host2_v35 :
    (StableHlo.after (hostOps2 (F := Ideal)) U (Proc.devRef .tc main_v35) : S10240x1280.Idx → EReal)
      = (U (Proc.devRef .tc main_v34) : S10240x1280.Idx → EReal) := by
  dsimp only [hostOps2]; after_results; all_goals rfl

theorem host4_v38 (r : Fin 10000) (d : Fin 1280) :
    (StableHlo.after (hostOps4 (F := Ideal)) U (Proc.devRef .tc main_v38) : S10000x1280.Idx → EReal) (ix2 r d)
      = (U (Proc.devRef .tc main_v37) : S10240x1280.Idx → EReal) (ix2 (⟨r.val, by omega⟩ : Fin 10240) d) := by
  dsimp only [hostOps4]; after_results
  exact slice2_axis0_apply 0 _ _ r d _ (Nat.zero_add _).symm

theorem host_pad (hc : (U (Proc.devRef .tc main_c_5) : S_.Idx → BitVec 32) = constantI S_ 32 0#32)
    (r : Fin 10240) (d : Fin 1280) :
    (StableHlo.after (hostOps0_1 (F := Ideal)) U (Proc.devRef .tc main_v25) : S10240x1280.Idx → EReal) (ix2 r d)
      = (if h : r.val < 10000 then (U (Proc.devRef .tc main_arg0) : S10000x1280.Idx → EReal) (ix2 ⟨r.val, h⟩ d) else 0 : EReal) := by
  dsimp only [hostOps0_1]; after_results
  show pad _ _ _ _ (U (Proc.devRef .tc main_arg0) : S10000x1280.Idx → EReal) (sitofp .f32
    (U (Proc.devRef .tc main_c_5) : S_.Idx → BitVec 32) : FVec Ideal S_ .f32) pads_S10000x1280_S10240x1280_02400_000 _ _ = _
  by_cases h : r.val < 10000
  · rw [dif_pos h]
    exact pad_apply_of_inside _ _ _ _ _ _ _ _ (ix2 (⟨r.val, h⟩ : Fin 10000) d) (fun a => match a with
      | ⟨0, _⟩ => by show r.val = 0 + r.val * (0 + 1); omega
      | ⟨1, _⟩ => by show d.val = 0 + d.val * (0 + 1); omega)
  · rw [dif_neg h]
    refine (pad_apply_of_not_inside _ _ _ _ _ _ _ _ (0 : Fin 2) ?_).trans ?_
    · show ¬(0 ≤ r.val ∧ (r.val - 0) % (0 + 1) = 0 ∧ (r.val - 0) / (0 + 1) < 10000); omega
    · rw [hc]; show (((0#32 : BitVec 32).toInt : ℝ) : EReal) = 0; simp

theorem host0_1_v24 :
    StableHlo.after (hostOps0_1 (F := Ideal)) U (Proc.devRef .tc main_v24) = U (Proc.devRef .tc main_v24) :=
  StableHlo.after_of_writes_sub hostOps0_1 U hostOps0_1_writes (by decide)

theorem host0_2_v27 (k d : Fin 1280) :
    (StableHlo.after (hostOps0_2 (F := Ideal)) U (Proc.devRef .tc main_v27) : S1280x1280.Idx → EReal) (ix2 k d)
      = (U (Proc.devRef .tc main_arg3) : S1280x1280.Idx → EReal) (ix2 d k) := by
  dsimp only [hostOps0_2]; after_results
  exact transpose_ix2_apply _ _ k d

theorem host0_2_v29 (k d : Fin 1280) :
    (StableHlo.after (hostOps0_2 (F := Ideal)) U (Proc.devRef .tc main_v29) : S1280x1280.Idx → EReal) (ix2 k d)
      = (U (Proc.devRef .tc main_arg5) : S1280x1280.Idx → EReal) (ix2 d k) := by
  dsimp only [hostOps0_2]; after_results
  exact transpose_ix2_apply _ _ k d

theorem host0_2_v30 (d : Fin 1280) :
    (StableHlo.after (hostOps0_2 (F := Ideal)) U (Proc.devRef .tc main_v30) : S1x1280.Idx → EReal) (ix2 0 d)
      = (U (Proc.devRef .tc main_arg4) : S1280.Idx → EReal) (ix1 d) := by
  dsimp only [hostOps0_2]; after_results
  exact shapeCast_a_1a_apply _ _ 0 d

theorem host0_2_v31 (d : Fin 1280) :
    (StableHlo.after (hostOps0_2 (F := Ideal)) U (Proc.devRef .tc main_v31) : S1x1280.Idx → EReal) (ix2 0 d)
      = (U (Proc.devRef .tc main_arg6) : S1280.Idx → EReal) (ix1 d) := by
  dsimp only [hostOps0_2]; after_results
  exact shapeCast_a_1a_apply _ _ 0 d

theorem host0_2_v32 :
    (StableHlo.after (hostOps0_2 (F := Ideal)) U (Proc.devRef .tc main_v32) : S10240x1280.Idx → EReal)
      = (U (Proc.devRef .tc main_v25) : S10240x1280.Idx → EReal) := by
  dsimp only [hostOps0_2]; after_results; all_goals rfl

theorem host0_2_v24 :
    StableHlo.after (hostOps0_2 (F := Ideal)) U (Proc.devRef .tc main_v24) = U (Proc.devRef .tc main_v24) :=
  StableHlo.after_of_writes_sub hostOps0_2 U hostOps0_2_writes (by decide)

theorem host0_2_v25 :
    StableHlo.after (hostOps0_2 (F := Ideal)) U (Proc.devRef .tc main_v25) = U (Proc.devRef .tc main_v25) :=
  StableHlo.after_of_writes_sub hostOps0_2 U hostOps0_2_writes (by decide)

end Cert.KernelIdeal.HandVal

end
-- ==== Proof.Val.HostAdj.lean ====
import proofs.«425851_j42021960024258_2_alg».proof.Proof.Gen.KernelIdeal.Launch
import proofs.«425851_j42021960024258_2_alg».proof.Proof.Spec
import proofs.«425851_j42021960024258_2_alg».proof.Proof.Consts
import proofs.«425851_j42021960024258_2_alg».proof.Proof.Math.Scatter
import Idealize.ShloMosaic.Lib.StableHlo.Run
import Idealize.ShloMosaic.Lib.Pipeline.Value
import Idealize.ShloMosaic.Lib.ValueIdx
import Idealize.ShloMosaic.Lib.ValueLayout
import Idealize.ShloMosaic.Lib.DynamicIndex
import Idealize.ShloMosaic.PureOps.Ideal.Laws

noncomputable section

namespace Cert.KernelIdeal.HandVal

open Cert.KernelIdeal Cert.KernelIdeal.Gen
open Idealize.ShloMosaic Idealize.ShloMosaic.TcCoe Idealize.ShloMosaic.ValueIdx Idealize.SL.Sem Idealize.ShloMosaic.StableHlo

variable (U : Valuation τ sig (Elt Ideal))

abbrev row (o : ℕ) (h : S2x160000.Slices ![o, 0] S1x160000) (x2 : S2x160000.Idx → BitVec 32) : IVec S160000 32 :=
  shapeCast S160000 (extractStridedSlice S1x160000 ![o, 0] x2 h) shapeCasts_S1x160000_S160000

abbrev wrapIdx (w : IVec S160000 32) : IVec S160000 32 :=
  select (cmpi .slt w (broadcastInDim S160000 ![] bcast_S_S160000 (constantI S_ 32 0#32)))
    (addi w (broadcastInDim S160000 ![] bcast_S_S160000 (constantI S_ 32 10240#32))) w

abbrev idxPairs (x2 : S2x160000.Idx → BitVec 32) : IVec S160000x2 32 :=
  concatenate S160000x2 1
    [⟨S160000x1, broadcastInDim S160000x1 ![0] bcast_S160000_S160000x1_0 (wrapIdx (row 1 slices_S2x160000_S1x160000_1_0 x2))⟩,
     ⟨S160000x1, broadcastInDim S160000x1 ![0] bcast_S160000_S160000x1_0 (wrapIdx (row 0 slices_S2x160000_S1x160000_0_0 x2))⟩]
    concatenates_S160000x1_S160000x1_S160000x2_d1

/-- Row `o` of a two-row list, cut out and flattened, has the list's entry `(o, e)` at `e`. -/
theorem row_apply (o : Fin 2) (h) (x2 : S2x160000.Idx → BitVec 32) (e : Fin 160000) : row o h x2 (ix1 e) = x2 (ix2 o e) :=
  (shapeCast_1a_a_apply _ _ e).trans (slice2_axis0_apply o x2 h 0 e o rfl)

/-- Adding the extent to the negative entries changes nothing where no entry is negative. -/
theorem wrapRow_apply {x2 : S2x160000.Idx → BitVec 32} (hnn : ∀ i, 0 ≤ (x2 i).toInt) (o : Fin 2) (h) (e : Fin 160000) :
    wrapIdx (row o h x2) (ix1 e) = x2 (ix2 o e) :=
  (select_slt_zero_of_nonneg _ _ _ _ (by rw [row_apply]; exact hnn _)).trans (row_apply o h x2 e)

/-- A vector spread along a new unit axis has its own entry `e` in row `e`. -/
theorem bcast_col (w : IVec S160000 32) (e : Fin 160000) :
    broadcastInDim S160000x1 ![0] bcast_S160000_S160000x1_0 w (ix2 e 0) = w (ix1 e) :=
  broadcastInDim_apply _ _ _ _ _ fun a => match a with | ⟨0, _⟩ => (if_neg (by decide : (160000 : ℕ) ≠ 1)).symm

theorem host0_v24_eq :
    (StableHlo.after (hostOps0 (F := Ideal)) U (Proc.devRef .tc main_v24) : S10240x10240.Idx → EReal)
      = truncf .bf16 (Host.scatterAdd (F := Ideal) (φ := .f32) scatter_S10240x10240_S160000x2_S160000_n_01_01_1
          (broadcastInDim S10240x10240 ![] bcast_S_S10240x10240 (constant S_ .f32 0x00000000#32))
          (idxPairs (U (Proc.devRef .tc main_arg2) : S2x160000.Idx → BitVec 32))
          (Host.divf (broadcastInDim S160000 ![] bcast_S_S160000 (constant S_ .f32 0x3F800000#32))
            (addf (mulf (U (Proc.devRef .tc main_arg1) : S160000.Idx → EReal) (U (Proc.devRef .tc main_arg1)))
              (broadcastInDim S160000 ![] bcast_S_S160000 (constant S_ .f32 0x358637BD#32))))) bitsLt_bf16_f32 := by
  dsimp only [hostOps0]; after_results_simp; all_goals rfl

theorem host_adj (hnn : ∀ i : S2x160000.Idx, 0 ≤ ((U (Proc.devRef .tc main_arg2) : S2x160000.Idx → BitVec 32) i).toInt)
    (r j : Fin 10240) :
    (StableHlo.after (hostOps0 (F := Ideal)) U (Proc.devRef .tc main_v24) : S10240x10240.Idx → EReal) (ix2 r j)
      = (0 : EReal) + ∑ e ∈ Finset.univ.filter (fun e : Fin 160000 =>
          ((U (Proc.devRef .tc main_arg2) : S2x160000.Idx → BitVec 32) (ix2 1 e)).toInt = (r.val : ℤ)
            ∧ ((U (Proc.devRef .tc main_arg2) : S2x160000.Idx → BitVec 32) (ix2 0 e)).toInt = (j.val : ℤ)),
          Cert.Spec.ew (U (Proc.devRef .tc main_arg1)) e := by
  have h0 (e : Fin 160000) : idxPairs (U (Proc.devRef .tc main_arg2) : S2x160000.Idx → BitVec 32) (ix2 e 0)
      = (U (Proc.devRef .tc main_arg2) : S2x160000.Idx → BitVec 32) (ix2 1 e) :=
    (concatenate_pair_apply_left (t := S160000x2) (s₁ := S160000x1) (s₂ := S160000x1) 1 _ _ _ (ix2 e 0) rfl (ix2 e 0)
      fun b => match b with | ⟨0, _⟩ => rfl | ⟨1, _⟩ => rfl).trans <| (bcast_col _ e).trans (wrapRow_apply hnn 1 _ e)
  have h1 (e : Fin 160000) : idxPairs (U (Proc.devRef .tc main_arg2) : S2x160000.Idx → BitVec 32) (ix2 e 1)
      = (U (Proc.devRef .tc main_arg2) : S2x160000.Idx → BitVec 32) (ix2 0 e) :=
    (concatenate_pair_apply_right (t := S160000x2) (s₁ := S160000x1) (s₂ := S160000x1) 1 _ _ _ (ix2 e 1) rfl rfl (ix2 e 0)
      (fun b => match b with | ⟨0, _⟩ => fun _ => rfl | ⟨1, _⟩ => fun hb => absurd rfl hb) rfl).trans <|
      (bcast_col _ e).trans (wrapRow_apply hnn 0 _ e)
  rw [host0_v24_eq]
  exact (Cert.Bridge.adj_read _ _ _ r j).trans (congrArg₂ (· + ·) Cert.Consts.ofBits_zero
    (Finset.sum_congr (Finset.filter_congr fun e _ => by rw [h0 e, h1 e]) fun _ _ => rfl))

end Cert.KernelIdeal.HandVal

end
-- ==== Proof.Val.Pool.lean ====
import proofs.«425851_j42021960024258_2_alg».proof.Proof.KI.Reg4
import Idealize.ShloMosaic.Lib.Pipeline.Value
import Idealize.ShloMosaic.Lib.ValueIdx
import Idealize.ShloMosaic.PureOps.Ideal.Laws

noncomputable section

namespace Cert.KernelIdeal.HandVal.Pool4

open Cert.KernelIdeal Cert.KernelIdeal.Gen Cert.KernelIdeal.Hand
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

theorem pay1_apply (q : Fin 1280) : (k4_pay1 (F := Ideal)) (ix2 0 q) = 0 := by
  unfold k4_pay1
  rw [shapeCast_self]
  exact Ideal.ofBits_zero_f32

-- One step adds the column sum of the two blocks' entrywise sum.
theorem pay2_apply (v3 : FVec Ideal S1x1280 .f32) (v4 v6 : FVec Ideal S1000x1280 .f32) (q : Fin 1280) :
    k4_pay2 v3 v4 v6 (ix2 0 q) = v3 (ix2 0 q) + ∑ k : Fin 1000, (v4 (ix2 k q) + v6 (ix2 k q)) := by
  unfold k4_pay2
  rw [shapeCast_self, addf_apply]
  refine congrArg (v3 (ix2 0 q) + ·) ?_
  refine (shapeCast_addUnit_apply ![1280] _ _ (ix2 0 q)).trans ?_
  refine (Ideal.multiReduction_add_single _ 0x00000000#32 reduces_S1000x1280_S1280 _ _ _).trans ?_
  refine Finset.sum_congr rfl fun (k : Fin 1000) _ => ?_
  have e : reduces_S1000x1280_S1280.lift (fun a : Fin 1 => (ix2 (0 : Fin 1) q) a.succ) k = ix2 k q :=
    funext fun a => match a with | ⟨0, _⟩ => rfl | ⟨1, _⟩ => rfl
  rw [e, addf_apply, shapeCast_self]

theorem pay3_apply (v : FVec Ideal S1x1280 .f32) (q : Fin 1280) :
    k4_pay3 v (ix2 0 q) = v (ix2 0 q) * ((1 / 10000 : ℝ) : EReal) := by
  unfold k4_pay3
  rw [mulf_apply, broadcast_apply]
  exact congrArg (v (ix2 0 q) * ·) (IdealRules.named_const.ideal_named_scalar _ _ _ _ rfl)

theorem idx4 : ∀ t : Fin grid4.N, (win4_0.index t (0 : Fin 2) = t.val ∧ win4_0.index t (1 : Fin 2) = 0)
    ∧ win4_2.index t (0 : Fin 2) = 0 ∧ win4_2.index t (1 : Fin 2) = 0 := by decide +kernel

def poolOf (H N0 : S10000x1280.Idx → EReal) (d : Fin 1280) : EReal :=
  (∑ r : Fin 10000, (H (ix2 r d) + N0 (ix2 r d))) * ((1 / 10000 : ℝ) : EReal)

def rowOf (H N0 : S10000x1280.Idx → EReal) (q : Fin 1280) (r : ℕ) : EReal :=
  if h : r < 10000 then H (ix2 ⟨r, h⟩ q) + N0 (ix2 ⟨r, h⟩ q) else 0

theorem sum_rowOf (H N0 : S10000x1280.Idx → EReal) (q : Fin 1280) :
    ∑ r ∈ Finset.range 10000, rowOf H N0 q r = ∑ r : Fin 10000, (H (ix2 r q) + N0 (ix2 r q)) :=
  (Finset.sum_range _).trans (Finset.sum_congr rfl fun r _ => dif_pos r.isLt)

-- Entry (k, q) of the t-th row blocks is entry (1000·t + k, q) of the two arrays.
theorem blk_row (c : Dev nD) (t : Fin cfg4.N) (k : Fin 1000) (q : Fin 1280) (B0 B1 : S1000x1280.Idx → EReal)
    (e0 : B0 = iblk4 V c 0 t) (e1 : B1 = iblk4 V c 1 t) :
    B0 (ix2 k q) + B1 (ix2 k q) = rowOf (V c main_v38) (V c main_arg0) q (1000 * t.val + k.val) := by
  have hr : 1000 * t.val + k.val < 10000 := by have := t.isLt; have := k.isLt; have : cfg4.N = 10 := N_4; omega
  have h := (idx4 t).1
  subst e0 e1
  unfold rowOf iblk4
  rw [dif_pos hr, View.read_apply, View.read_apply]
  refine congrArg₂ (· + ·) (congrArg (V c main_v38) ?_) (congrArg (V c main_arg0) ?_) <;>
  · funext a
    apply Fin.ext
    match a with
    | ⟨0, _⟩ => show win4_0.index t (0 : Fin 2) * 1000 + 1 * k.val = 1000 * t.val + k.val; omega
    | ⟨1, _⟩ => show win4_0.index t (1 : Fin 2) * 1280 + 1 * q.val = q.val; omega

theorem step4 (c : Dev nD) (t : Fin cfg4.N) (v : FVec Ideal S1x1280 .f32) (q : Fin 1280) :
    k4_pay2 v (iblk4 V c 0 t) (iblk4 V c 1 t) (ix2 0 q)
      = v (ix2 0 q) + ∑ k ∈ Finset.range 1000, rowOf (V c main_v38) (V c main_arg0) q (1000 * t.val + k) :=
  (pay2_apply _ _ _ q).trans (congrArg (v (ix2 0 q) + ·) ((Finset.sum_congr rfl fun k _ => blk_row V c t k q _ _ rfl rfl).trans
    (Fin.sum_univ_eq_sum_range (fun k => rowOf _ _ q (1000 * t.val + k)) 1000)))

-- By induction on n: the n-th partial sum runs over the rows below 1000·(n+1).
theorem acc4_apply (c : Dev nD) (q : Fin 1280) : ∀ (n : ℕ) (h : n < cfg4.N),
    (acc4 V c n h : S1x1280.Idx → EReal) (ix2 0 q)
      = ∑ r ∈ Finset.range (1000 * (n + 1)), rowOf (V c main_v38) (V c main_arg0) q r
  | 0, h => by
    rw [acc4_zero, step4, pay1_apply, zero_add]
    exact Finset.sum_congr rfl fun k _ => congrArg _ (Nat.zero_add k)
  | n + 1, h => by
    rw [acc4_succ, step4, acc4_apply c q n (Nat.lt_of_succ_lt h), mul_add_one 1000 (n + 1), Finset.sum_range_add]

def pooled (c : Dev nD) : Buf (Elt Ideal) ((c : Thread nD τ).loc main_v39) :=
  fun j : S1x1280.Idx => poolOf (V c main_v38) (V c main_arg0) (j 1)

theorem emb4_2 (t : Fin cfg4.N) (y : S1x1280.Idx) : ((cfg4.win 2).blk t).view.emb y = y :=
  funext fun a => Fin.ext (match a with
    | ⟨0, _⟩ => win4_2.rect_emb_val_of_index_zero t 0 (idx4 t).2.1 y
    | ⟨1, _⟩ => win4_2.rect_emb_val_of_index_zero t 1 (idx4 t).2.2 y)

theorem flushed4_eq (c : Dev nD) (t : Fin cfg4.N) (hf : (cfg4.win 2).flush t = true) :
    (dat4 V c).flushed 2 t = ((cfg4.win 2).blk t).view.read (Elt Ideal) (pooled V c) := by
  have h9 : t.val = 9 := by have := (flush4_2 t).mp hf; have := t.isLt; have : cfg4.N = 10 := N_4; omega
  show (cfg4.win 2).cut (grid4.coords t) ((dat4 V c).after 2 t) = _
  rw [after4_2]
  funext (j : S1x1280.Idx)
  obtain ⟨p, q, rfl⟩ : ∃ (p : Fin 1) (q : Fin 1280), j = ix2 p q := ⟨j 0, j 1, eq_ix2 j⟩
  obtain rfl : p = 0 := Subsingleton.elim _ _
  rw [View.read_apply, emb4_2]
  show k4_pay3 (acc4 V c t.val t.isLt) (ix2 0 q) = poolOf (V c main_v38) (V c main_arg0) q
  rw [pay3_apply, acc4_apply, h9]
  exact congrArg (· * _) (sum_rowOf _ _ q)

theorem cover4 (c : Dev nD) (i : ((cfg4.win 2).arr.view.loc (c.tc : Thread nD τ)).2.ty.Idx) :
    ∃ t : Fin cfg4.N, (cfg4.win 2).flush t = true ∧ i ∈ ((cfg4.win 2).blk t).view.set :=
  have h9 : 9 < cfg4.N := Nat.lt_of_lt_of_eq (by decide : 9 < 10) N_4.symm
  ⟨⟨9, h9⟩, (flush4_2 _).mpr rfl, emb4_2 ⟨9, h9⟩ i ▸ View.emb_mem_set _ _⟩

theorem pool4_value (c : Dev nD) (d : Fin 1280) :
    ((dat4 (F := Ideal) V c).arrAt 2 cfg4.N : S1x1280.Idx → EReal) (ix2 0 d)
      = poolOf (V c main_v38) (V c main_arg0) d :=
  congrFun ((dat4 V c).arrAt_eq_of_cover 2 (pooled V c) (flushed4_eq V c) (cover4 c)) (ix2 0 d)

end Cert.KernelIdeal.HandVal.Pool4

end
-- ==== Proof.Val.Lin.lean ====
import proofs.«425851_j42021960024258_2_alg».proof.Proof.KI.Reg1
import Idealize.ShloMosaic.Lib.Pipeline.Value
import Idealize.ShloMosaic.Lib.ValueIdx
import Idealize.ShloMosaic.PureOps.Ideal.Laws

noncomputable section

namespace Cert.KernelIdeal.HandVal.Lin1

open Cert.KernelIdeal Cert.KernelIdeal.Gen Cert.KernelIdeal.Hand
open Idealize.ShloMosaic Idealize.ShloMosaic.TcCoe
open Idealize.ShloMosaic.ValueIdx

/-- The contraction's index set is its one coordinate; the bias row is read on every row. -/
theorem lin1_pay_apply (x g : FVec Ideal S512x1280 .f32) (w : FVec Ideal S1280x1280 .bf16) (b : FVec Ideal S1x1280 .f32)
    (j : S512x1280.Idx) :
    k1_pay1 (F := Ideal) x g w b j
      = (∑ k : Fin 1280, (x (ix2 (j 0) k) + g (ix2 (j 0) k)) * w (ix2 k (j 1))) + b (ix2 (0 : Fin 1) (j 1)) := by
  unfold k1_pay1
  simp only [shapeCast_self]
  refine (addf_apply _ _ _).trans (congrArg₂ (· + ·) ?_
    (broadcastTo_apply b _ _ (ix2 0 (j 1)) fun a => match a with | ⟨0, _⟩ => rfl | ⟨1, _⟩ => rfl))
  refine (Ideal.matmul_constant_zero_apply _ none _ _ _).trans ?_
  rw [← Equiv.sum_comp (contrEquiv1 dot_S512x1280_S1280x1280_S512x1280_1_0_0_1_n_n 1280 rfl rfl).symm]
  exact Finset.sum_congr rfl fun k _ => congrArg₂ (· * ·)
    (congrArg (fun i => x i + g i) (Shape.idx_ext₂ (by rfl) (by rfl))) (congrArg w (Shape.idx_ext₂ (by rfl) (by rfl)))

variable (V : (c : Dev nD) → (b : Ref sig .tc) → Buf (Elt Ideal) ((c : Thread nD τ).loc b))

theorem idx1_facts : ∀ t : Fin cfg1.N, win1_4.index t (0 : Fin 2) = t.val :=
  (by decide +kernel : ∀ t : Fin grid1.N, _)

/-- (X + G)·Wt + b at row r and column d. -/
def linOf (X G : S10240x1280.Idx → EReal) (Wt : S1280x1280.Idx → EReal) (b : S1x1280.Idx → EReal)
    (r : Fin 10240) (d : Fin 1280) : EReal :=
  (∑ k : Fin 1280, (X (ix2 r k) + G (ix2 r k)) * Wt (ix2 k d)) + b (ix2 0 d)

/-- Block t of the layer's array: the two row operands are read on the block's own rows, the weights and bias whole. -/
theorem lin1_flushed (c : Dev nD) (t : Fin cfg1.N) :
    (dat1 (F := Ideal) V c).flushed 4 t = ((cfg1.win 4).blk t).view.read (Elt Ideal)
      fun i => linOf (V c main_v25) (V c main_v33) (V c main_v27) (V c main_v30) (i 0) (i 1) := by
  funext y
  have z : ∀ n : Nat, 0 + 1 * n = n := fun n => (Nat.zero_add _).trans (Nat.one_mul n)
  refine (congrFun (after1_4 V c t) y).trans ((lin1_pay_apply _ _ _ _ y).trans (congrArg₂ (· + ·)
    (Finset.sum_congr rfl fun k _ => congrArg₂ (· * ·) (congrArg₂ (· + ·) ?_ ?_) ?_) ?_))
  · exact congrArg (V c main_v25) (Shape.idx_ext₂ rfl (z _))
  · exact congrArg (V c main_v33) (Shape.idx_ext₂ rfl (z _))
  · exact congrArg (V c main_v27) (Shape.idx_ext₂ (z _) rfl)
  · exact congrArg (V c main_v30) (Shape.idx_ext₂ rfl rfl)

/-- Row r lies in block r / 512. -/
theorem lin1_cover (i : S10240x1280.Idx) :
    ∃ t : Fin cfg1.N, (cfg1.win 4).flush t = true ∧ i ∈ ((cfg1.win 4).blk t).view.set := by
  have h0 := idx2_lt0 i
  obtain ⟨t, ht⟩ : ∃ t : Fin cfg1.N, t.val = (i 0).val / 512 := ⟨⟨(i 0).val / 512, Nat.lt_of_lt_of_eq (by omega) N_1.symm⟩, rfl⟩
  have e : i = ((cfg1.win 4).blk t).view.emb (ix2 ⟨(i 0).val % 512, Nat.mod_lt _ (by decide)⟩ (i 1)) :=
    Shape.idx_ext₂ (by show _ = win1_4.index t 0 * 512 + 1 * ((i 0).val % 512); rw [idx1_facts, ht]; omega)
      ((Nat.zero_add _).trans (Nat.one_mul _)).symm
  exact ⟨t, flush1_4 t, e ▸ View.emb_mem_set _ _⟩

/-- The blocks cover the output array, so it ends holding the layer's value at every index. -/
theorem lin1_value (c : Dev nD) (r : Fin 10240) (d : Fin 1280) :
    ((dat1 (F := Ideal) V c).arrAt 4 cfg1.N : S10240x1280.Idx → EReal) (ix2 r d)
      = linOf (V c main_v25) (V c main_v33) (V c main_v27) (V c main_v30) r d :=
  congrFun ((dat1 (F := Ideal) V c).arrAt_eq_of_cover 4 (fun i => linOf _ _ _ _ (i 0) (i 1))
    (fun t _ => lin1_flushed V c t) lin1_cover) (ix2 r d)

end Cert.KernelIdeal.HandVal.Lin1

end
-- ==== Proof.Val.Lin3.lean ====
import proofs.«425851_j42021960024258_2_alg».proof.Proof.KI.Reg3
import Idealize.ShloMosaic.Lib.Pipeline.Value
import Idealize.ShloMosaic.Lib.ValueIdx
import Idealize.ShloMosaic.PureOps.Ideal.Laws

noncomputable section

namespace Cert.KernelIdeal.HandVal.Lin3

open Cert.KernelIdeal Cert.KernelIdeal.Gen Cert.KernelIdeal.Hand
open Idealize.ShloMosaic Idealize.ShloMosaic.TcCoe
open Idealize.ShloMosaic.ValueIdx

/-- The contraction's index set is its one coordinate; the bias row is read on every row. -/
theorem lin3_pay_apply (x g : FVec Ideal S512x1280 .f32) (w : FVec Ideal S1280x1280 .bf16) (b : FVec Ideal S1x1280 .f32)
    (j : S512x1280.Idx) :
    k3_pay1 (F := Ideal) x g w b j
      = (∑ k : Fin 1280, (x (ix2 (j 0) k) + g (ix2 (j 0) k)) * w (ix2 k (j 1))) + b (ix2 (0 : Fin 1) (j 1)) := by
  unfold k3_pay1
  simp only [shapeCast_self]
  refine (addf_apply _ _ _).trans (congrArg₂ (· + ·) ?_
    (broadcastTo_apply b _ _ (ix2 0 (j 1)) fun a => match a with | ⟨0, _⟩ => rfl | ⟨1, _⟩ => rfl))
  refine (Ideal.matmul_constant_zero_apply _ none _ _ _).trans ?_
  rw [← Equiv.sum_comp (contrEquiv1 dot_S512x1280_S1280x1280_S512x1280_1_0_0_1_n_n 1280 rfl rfl).symm]
  exact Finset.sum_congr rfl fun k _ => congrArg₂ (· * ·)
    (congrArg (fun i => x i + g i) (Shape.idx_ext₂ (by rfl) (by rfl))) (congrArg w (Shape.idx_ext₂ (by rfl) (by rfl)))

variable (V : (c : Dev nD) → (b : Ref sig .tc) → Buf (Elt Ideal) ((c : Thread nD τ).loc b))

theorem idx3_facts : ∀ t : Fin cfg3.N, win3_4.index t (0 : Fin 2) = t.val :=
  (by decide +kernel : ∀ t : Fin grid3.N, _)

/-- (X + G)·Wt + b at row r and column d. -/
def linOf (X G : S10240x1280.Idx → EReal) (Wt : S1280x1280.Idx → EReal) (b : S1x1280.Idx → EReal)
    (r : Fin 10240) (d : Fin 1280) : EReal :=
  (∑ k : Fin 1280, (X (ix2 r k) + G (ix2 r k)) * Wt (ix2 k d)) + b (ix2 0 d)

/-- Block t of the layer's array: the two row operands are read on the block's own rows, the weights and bias whole. -/
theorem lin3_flushed (c : Dev nD) (t : Fin cfg3.N) :
    (dat3 (F := Ideal) V c).flushed 4 t = ((cfg3.win 4).blk t).view.read (Elt Ideal)
      fun i => linOf (V c main_v34) (V c main_v36) (V c main_v29) (V c main_v31) (i 0) (i 1) := by
  funext y
  have z : ∀ n : Nat, 0 + 1 * n = n := fun n => (Nat.zero_add _).trans (Nat.one_mul n)
  refine (congrFun (after3_4 V c t) y).trans ((lin3_pay_apply _ _ _ _ y).trans (congrArg₂ (· + ·)
    (Finset.sum_congr rfl fun k _ => congrArg₂ (· * ·) (congrArg₂ (· + ·) ?_ ?_) ?_) ?_))
  · exact congrArg (V c main_v34) (Shape.idx_ext₂ rfl (z _))
  · exact congrArg (V c main_v36) (Shape.idx_ext₂ rfl (z _))
  · exact congrArg (V c main_v29) (Shape.idx_ext₂ (z _) rfl)
  · exact congrArg (V c main_v31) (Shape.idx_ext₂ rfl rfl)

/-- Row r lies in block r / 512. -/
theorem lin3_cover (i : S10240x1280.Idx) :
    ∃ t : Fin cfg3.N, (cfg3.win 4).flush t = true ∧ i ∈ ((cfg3.win 4).blk t).view.set := by
  have h0 := idx2_lt0 i
  obtain ⟨t, ht⟩ : ∃ t : Fin cfg3.N, t.val = (i 0).val / 512 := ⟨⟨(i 0).val / 512, Nat.lt_of_lt_of_eq (by omega) N_3.symm⟩, rfl⟩
  have e : i = ((cfg3.win 4).blk t).view.emb (ix2 ⟨(i 0).val % 512, Nat.mod_lt _ (by decide)⟩ (i 1)) :=
    Shape.idx_ext₂ (by show _ = win3_4.index t 0 * 512 + 1 * ((i 0).val % 512); rw [idx3_facts, ht]; omega)
      ((Nat.zero_add _).trans (Nat.one_mul _)).symm
  exact ⟨t, flush3_4 t, e ▸ View.emb_mem_set _ _⟩

/-- The blocks cover the output array, so it ends holding the layer's value at every index. -/
theorem lin3_value (c : Dev nD) (r : Fin 10240) (d : Fin 1280) :
    ((dat3 (F := Ideal) V c).arrAt 4 cfg3.N : S10240x1280.Idx → EReal) (ix2 r d)
      = linOf (V c main_v34) (V c main_v36) (V c main_v29) (V c main_v31) r d :=
  congrFun ((dat3 (F := Ideal) V c).arrAt_eq_of_cover 4 (fun i => linOf _ _ _ _ (i 0) (i 1))
    (fun t _ => lin3_flushed V c t) lin3_cover) (ix2 r d)

end Cert.KernelIdeal.HandVal.Lin3

end
-- ==== Proof.Val.Agg.lean ====
import proofs.«425851_j42021960024258_2_alg».proof.Proof.KI.Reg0
import Idealize.ShloMosaic.Lib.Pipeline.Value
import Idealize.ShloMosaic.Lib.ValueIdx
import Idealize.ShloMosaic.PureOps.Ideal.Laws

noncomputable section

namespace Cert.KernelIdeal.HandVal.Agg0

open Cert.KernelIdeal Cert.KernelIdeal.Gen Cert.KernelIdeal.Hand
open Idealize.ShloMosaic Idealize.ShloMosaic.TcCoe Idealize.SL.Sem
open Idealize.ShloMosaic.ValueIdx
open scoped BigOperators

-- The block product contracts the one shared axis, so the step adds the sum of the products along it.
theorem agg0_step_apply (s : FVec Ideal S512x1280 .f32) (a : FVec Ideal S512x2048 .bf16) (x : FVec Ideal S2048x1280 .bf16)
    (i : S512x1280.Idx) :
    k0_pay2 (F := Ideal) s a x i = s i + ∑ jj : Fin 2048, a (ix2 (i 0) jj) * x (ix2 jj (i 1)) := by
  unfold k0_pay2
  simp only [shapeCast_self]
  refine congrArg (fun z => s i + z) ((Ideal.matmul_constant_zero_apply _ none a x i).trans ?_)
  rw [← Equiv.sum_comp (contrEquiv1 _ 2048 rfl rfl).symm]
  refine Finset.sum_congr rfl fun k _ => ?_
  have hk := contrEquiv1_symm_val dot_S512x2048_S2048x1280_S512x1280_1_0_0_1_n_n 2048 rfl rfl k
  exact congrArg₂ (fun u v => a u * x v)
    (Shape.idx_ext₂ rfl ((DotDims.lhsIdx_val_of_single _ rfl i _).trans hk))
    (Shape.idx_ext₂ ((DotDims.rhsIdx_val_of_single _ rfl i _).trans hk) rfl)

theorem agg0_reset_apply (i : S512x1280.Idx) : k0_pay1 (F := Ideal) i = (0 : EReal) := by
  unfold k0_pay1
  simp only [shapeCast_self]
  exact Ideal.ofBits_zero_f32

variable (V : (c : Dev nD) → (b : Ref sig .tc) → Buf (Elt Ideal) ((c : Thread nD τ).loc b))

def aggOf (A : S10240x10240.Idx → EReal) (X : S10240x1280.Idx → EReal) (r : Fin 10240) (d : Fin 1280) : EReal :=
  ∑ j : Fin 10240, A (ix2 r j) * X (ix2 j d)

theorem agg0_idx : ∀ t : Fin cfg0.N, win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = t.val / 5 ∧ win0_2.index t (1 : Fin 2) = 0 :=
  (by decide +kernel : ∀ t : Fin grid0.N, _)

abbrev agg0_A (c : Dev nD) : S10240x10240.Idx → EReal := V c main_v24
abbrev agg0_X (c : Dev nD) : S10240x1280.Idx → EReal := V c main_v32
abbrev agg0_ablk (c : Dev nD) (t : Fin cfg0.N) : FVec Ideal S512x2048 .bf16 := iblk0 V c 0 t
abbrev agg0_xblk (c : Dev nD) (t : Fin cfg0.N) : FVec Ideal S2048x1280 .bf16 := iblk0 V c 1 t

-- An entry of a block is the array's entry at block index times block size plus the coordinate inside.
theorem agg0_blk_apply (c : Dev nD) (t : Fin cfg0.N) (y : S512x1280.Idx) (jj : Fin 2048) (i : S10240x1280.Idx) (j : Fin 10240)
    (h0 : (i 0).val = 512 * (t.val / 5) + (y 0).val) (h1 : (i 1).val = (y 1).val) (hj : j.val = 2048 * (t.val % 5) + jj.val) :
    agg0_ablk V c t (ix2 (y 0) jj) * agg0_xblk V c t (ix2 jj (y 1)) = agg0_A V c (ix2 (i 0) j) * agg0_X V c (ix2 j (i 1)) := by
  obtain ⟨e0, e1, e2, e3, -, -⟩ := agg0_idx t
  refine congrArg₂ (fun u v => agg0_A V c u * agg0_X V c v) (Shape.idx_ext₂ ?_ ?_) (Shape.idx_ext₂ ?_ ?_)
  · show win0_0.index t (0 : Fin 2) * 512 + 1 * (y 0).val = (i 0).val; omega
  · show win0_0.index t (1 : Fin 2) * 2048 + 1 * jj.val = j.val; omega
  · show win0_1.index t (0 : Fin 2) * 2048 + 1 * jj.val = j.val; omega
  · show win0_1.index t (1 : Fin 2) * 1280 + 1 * (y 1).val = (i 1).val; omega

-- The product of point n's two blocks at an entry (zero past the grid).
def agg0_term (c : Dev nD) (n : ℕ) (y : S512x1280.Idx) : EReal :=
  if h : n < cfg0.N then ∑ jj : Fin 2048, agg0_ablk V c ⟨n, h⟩ (ix2 (y 0) jj) * agg0_xblk V c ⟨n, h⟩ (ix2 jj (y 1)) else 0

abbrev agg0_step (c : Dev nD) : (n : ℕ) → n < cfg0.N → (S512x1280.Idx → EReal) → S512x1280.Idx → EReal :=
  fun n h s => k0_pay2 (F := Ideal) s (agg0_ablk V c ⟨n, h⟩) (agg0_xblk V c ⟨n, h⟩)

-- After point t the accumulated value is the sum of the block products of points 5·(t/5) … t.
theorem agg0_acc_apply (c : Dev nD) (t : Fin cfg0.N) (y : S512x1280.Idx) :
    acc0 V c t.val t.isLt y = 0 + ∑ s ∈ Finset.range (t.val % 5 + 1), agg0_term V c (5 * (t.val / 5) + s) y := by
  have hb : 5 * (t.val / 5) + t.val % 5 < cfg0.N := by rw [Nat.div_add_mod]; exact t.isLt
  have key : ∀ (n : ℕ) (h : n < cfg0.N) (s : S512x1280.Idx → EReal) (y : S512x1280.Idx),
      agg0_step V c n h s y = s y + agg0_term V c n y := fun n h s y => by
    rw [agg0_term, dif_pos h]; exact agg0_step_apply s _ _ y
  exact (congrFun (Pipeline.eq_accAt_of_mod (fun n h => acc0 V c n h) 5 (fun n h => agg0_step V c n h (k0_pay1 (F := Ideal)))
      (agg0_step V c) (acc0_first V c) (fun n h h5 => acc0_next V c (n + 1) h h5) (by decide) t.val t.isLt hb) y).trans
    (Pipeline.accAt_add_apply _ (agg0_step V c) (fun _ => 0) (agg0_term V c) _ 4
      (fun h y => (key _ h _ y).trans (by rw [agg0_reset_apply])) (fun n h s y _ _ => key n h s y) _ (by omega) hb y)

-- Five blocks of 2048 are the axis of 10240: at t % 5 = 4 the accumulated value is the whole contraction.
theorem agg0_acc_flush (c : Dev nD) (t : Fin cfg0.N) (h4 : t.val % 5 = 4) (y : S512x1280.Idx) (i : S10240x1280.Idx)
    (h0 : (i 0).val = 512 * (t.val / 5) + (y 0).val) (h1 : (i 1).val = (y 1).val) :
    acc0 V c t.val t.isLt y = aggOf (V c main_v24) (V c main_v32) (i 0) (i 1) := by
  have hN : cfg0.N = 100 := N_0
  unfold aggOf
  rw [agg0_acc_apply V c t y, h4, zero_add, Finset.sum_range,
    ← Equiv.sum_comp (finProdFinEquiv (m := 5) (n := 2048)), Fintype.sum_prod_type]
  refine Finset.sum_congr rfl fun s _ => ?_
  have hn : 5 * (t.val / 5) + s.val < cfg0.N := by have := t.isLt; have := s.isLt; omega
  rw [agg0_term, dif_pos hn]
  refine Finset.sum_congr rfl fun jj _ => agg0_blk_apply V c ⟨_, hn⟩ y jj i _ ?_ h1 ?_
  · show (i 0).val = 512 * ((5 * (t.val / 5) + s.val) / 5) + (y 0).val; omega
  · show jj.val + 2048 * s.val = 2048 * ((5 * (t.val / 5) + s.val) % 5) + jj.val; omega

abbrev agg0_G (c : Dev nD) : S10240x1280.Idx → EReal :=
  fun i => aggOf (V c main_v24) (V c main_v32) (i 0) (i 1)

theorem agg0_flushed_eq (c : Dev nD) (t : Fin cfg0.N) (hf : (cfg0.win 2).flush t = true) :
    (dat0 V c).flushed 2 t = ((cfg0.win 2).blk t).view.read (Elt Ideal) (agg0_G V c) := by
  obtain ⟨-, -, -, -, e4, e5⟩ := agg0_idx t
  funext y
  exact agg0_acc_flush V c t ((flush0_2 t).mp hf) y (((cfg0.win 2).blk t).view.emb y)
    (by show win0_2.index t (0 : Fin 2) * 512 + 1 * (y 0).val = _; omega)
    (by show win0_2.index t (1 : Fin 2) * 1280 + 1 * (y 1).val = _; omega)

-- Row r of the output array lies in the block of the last point of row block r / 512.
theorem agg0_cover (i : S10240x1280.Idx) :
    ∃ t : Fin cfg0.N, (cfg0.win 2).flush t = true ∧ i ∈ ((cfg0.win 2).blk t).view.set := by
  have hi0 := idx2_lt0 i
  have hi1 := idx2_lt1 i
  have hN : cfg0.N = 100 := N_0
  obtain ⟨t, ht⟩ : ∃ t : Fin cfg0.N, t.val = 5 * ((i 0).val / 512) + 4 := ⟨⟨_, by omega⟩, rfl⟩
  obtain ⟨-, -, -, -, e4, e5⟩ := agg0_idx t
  refine ⟨t, (flush0_2 t).mpr (by omega), ?_⟩
  show i ∈ ((View.whole main_v33).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1280 ≤ (i 1).val ∧ (i 1).val < win0_2.index t (1 : Fin 2) * 1280 + 1280
    omega

theorem agg0_value (c : Dev nD) (r : Fin 10240) (d : Fin 1280) :
    ((dat0 (F := Ideal) V c).arrAt 2 cfg0.N : S10240x1280.Idx → EReal) (ix2 r d)
      = aggOf (V c main_v24) (V c main_v32) r d :=
  congrFun ((dat0 (F := Ideal) V c).arrAt_eq_of_cover 2 (agg0_G V c) (agg0_flushed_eq V c) agg0_cover) (ix2 r d)

end Cert.KernelIdeal.HandVal.Agg0

end
-- ==== Proof.Val.Agg2.lean ====
import proofs.«425851_j42021960024258_2_alg».proof.Proof.KI.Reg2
import Idealize.ShloMosaic.Lib.Pipeline.Value
import Idealize.ShloMosaic.Lib.ValueIdx
import Idealize.ShloMosaic.PureOps.Ideal.Laws

noncomputable section

namespace Cert.KernelIdeal.HandVal.Agg2

open Cert.KernelIdeal Cert.KernelIdeal.Gen Cert.KernelIdeal.Hand
open Idealize.ShloMosaic Idealize.ShloMosaic.TcCoe Idealize.SL.Sem
open Idealize.ShloMosaic.ValueIdx
open scoped BigOperators

-- The block product contracts the one shared axis, so the step adds the sum of the products along it.
theorem agg2_step_apply (s : FVec Ideal S512x1280 .f32) (a : FVec Ideal S512x2048 .bf16) (x : FVec Ideal S2048x1280 .bf16)
    (i : S512x1280.Idx) :
    k2_pay2 (F := Ideal) s a x i = s i + ∑ jj : Fin 2048, a (ix2 (i 0) jj) * x (ix2 jj (i 1)) := by
  unfold k2_pay2
  simp only [shapeCast_self]
  refine congrArg (fun z => s i + z) ((Ideal.matmul_constant_zero_apply _ none a x i).trans ?_)
  rw [← Equiv.sum_comp (contrEquiv1 _ 2048 rfl rfl).symm]
  refine Finset.sum_congr rfl fun k _ => ?_
  have hk := contrEquiv1_symm_val dot_S512x2048_S2048x1280_S512x1280_1_0_0_1_n_n 2048 rfl rfl k
  exact congrArg₂ (fun u v => a u * x v)
    (Shape.idx_ext₂ rfl ((DotDims.lhsIdx_val_of_single _ rfl i _).trans hk))
    (Shape.idx_ext₂ ((DotDims.rhsIdx_val_of_single _ rfl i _).trans hk) rfl)

theorem agg2_reset_apply (i : S512x1280.Idx) : k2_pay1 (F := Ideal) i = (0 : EReal) := by
  unfold k2_pay1
  simp only [shapeCast_self]
  exact Ideal.ofBits_zero_f32

variable (V : (c : Dev nD) → (b : Ref sig .tc) → Buf (Elt Ideal) ((c : Thread nD τ).loc b))

def aggOf (A : S10240x10240.Idx → EReal) (X : S10240x1280.Idx → EReal) (r : Fin 10240) (d : Fin 1280) : EReal :=
  ∑ j : Fin 10240, A (ix2 r j) * X (ix2 j d)

theorem agg2_idx : ∀ t : Fin cfg2.N, win2_0.index t (0 : Fin 2) = t.val / 5 ∧ win2_0.index t (1 : Fin 2) = t.val % 5
    ∧ win2_1.index t (0 : Fin 2) = t.val % 5 ∧ win2_1.index t (1 : Fin 2) = 0
    ∧ win2_2.index t (0 : Fin 2) = t.val / 5 ∧ win2_2.index t (1 : Fin 2) = 0 :=
  (by decide +kernel : ∀ t : Fin grid2.N, _)

abbrev agg2_A (c : Dev nD) : S10240x10240.Idx → EReal := V c main_v24
abbrev agg2_X (c : Dev nD) : S10240x1280.Idx → EReal := V c main_v35
abbrev agg2_ablk (c : Dev nD) (t : Fin cfg2.N) : FVec Ideal S512x2048 .bf16 := iblk2 V c 0 t
abbrev agg2_xblk (c : Dev nD) (t : Fin cfg2.N) : FVec Ideal S2048x1280 .bf16 := iblk2 V c 1 t

-- An entry of a block is the array's entry at block index times block size plus the coordinate inside.
theorem agg2_blk_apply (c : Dev nD) (t : Fin cfg2.N) (y : S512x1280.Idx) (jj : Fin 2048) (i : S10240x1280.Idx) (j : Fin 10240)
    (h0 : (i 0).val = 512 * (t.val / 5) + (y 0).val) (h1 : (i 1).val = (y 1).val) (hj : j.val = 2048 * (t.val % 5) + jj.val) :
    agg2_ablk V c t (ix2 (y 0) jj) * agg2_xblk V c t (ix2 jj (y 1)) = agg2_A V c (ix2 (i 0) j) * agg2_X V c (ix2 j (i 1)) := by
  obtain ⟨e0, e1, e2, e3, -, -⟩ := agg2_idx t
  refine congrArg₂ (fun u v => agg2_A V c u * agg2_X V c v) (Shape.idx_ext₂ ?_ ?_) (Shape.idx_ext₂ ?_ ?_)
  · show win2_0.index t (0 : Fin 2) * 512 + 1 * (y 0).val = (i 0).val; omega
  · show win2_0.index t (1 : Fin 2) * 2048 + 1 * jj.val = j.val; omega
  · show win2_1.index t (0 : Fin 2) * 2048 + 1 * jj.val = j.val; omega
  · show win2_1.index t (1 : Fin 2) * 1280 + 1 * (y 1).val = (i 1).val; omega

-- The product of point n's two blocks at an entry (zero past the grid).
def agg2_term (c : Dev nD) (n : ℕ) (y : S512x1280.Idx) : EReal :=
  if h : n < cfg2.N then ∑ jj : Fin 2048, agg2_ablk V c ⟨n, h⟩ (ix2 (y 0) jj) * agg2_xblk V c ⟨n, h⟩ (ix2 jj (y 1)) else 0

abbrev agg2_step (c : Dev nD) : (n : ℕ) → n < cfg2.N → (S512x1280.Idx → EReal) → S512x1280.Idx → EReal :=
  fun n h s => k2_pay2 (F := Ideal) s (agg2_ablk V c ⟨n, h⟩) (agg2_xblk V c ⟨n, h⟩)

-- After point t the accumulated value is the sum of the block products of points 5·(t/5) … t.
theorem agg2_acc_apply (c : Dev nD) (t : Fin cfg2.N) (y : S512x1280.Idx) :
    acc2 V c t.val t.isLt y = 0 + ∑ s ∈ Finset.range (t.val % 5 + 1), agg2_term V c (5 * (t.val / 5) + s) y := by
  have hb : 5 * (t.val / 5) + t.val % 5 < cfg2.N := by rw [Nat.div_add_mod]; exact t.isLt
  have key : ∀ (n : ℕ) (h : n < cfg2.N) (s : S512x1280.Idx → EReal) (y : S512x1280.Idx),
      agg2_step V c n h s y = s y + agg2_term V c n y := fun n h s y => by
    rw [agg2_term, dif_pos h]; exact agg2_step_apply s _ _ y
  exact (congrFun (Pipeline.eq_accAt_of_mod (fun n h => acc2 V c n h) 5 (fun n h => agg2_step V c n h (k2_pay1 (F := Ideal)))
      (agg2_step V c) (acc2_first V c) (fun n h h5 => acc2_next V c (n + 1) h h5) (by decide) t.val t.isLt hb) y).trans
    (Pipeline.accAt_add_apply _ (agg2_step V c) (fun _ => 0) (agg2_term V c) _ 4
      (fun h y => (key _ h _ y).trans (by rw [agg2_reset_apply])) (fun n h s y _ _ => key n h s y) _ (by omega) hb y)

-- Five blocks of 2048 are the axis of 10240: at t % 5 = 4 the accumulated value is the whole contraction.
theorem agg2_acc_flush (c : Dev nD) (t : Fin cfg2.N) (h4 : t.val % 5 = 4) (y : S512x1280.Idx) (i : S10240x1280.Idx)
    (h0 : (i 0).val = 512 * (t.val / 5) + (y 0).val) (h1 : (i 1).val = (y 1).val) :
    acc2 V c t.val t.isLt y = aggOf (V c main_v24) (V c main_v35) (i 0) (i 1) := by
  have hN : cfg2.N = 100 := N_2
  unfold aggOf
  rw [agg2_acc_apply V c t y, h4, zero_add, Finset.sum_range,
    ← Equiv.sum_comp (finProdFinEquiv (m := 5) (n := 2048)), Fintype.sum_prod_type]
  refine Finset.sum_congr rfl fun s _ => ?_
  have hn : 5 * (t.val / 5) + s.val < cfg2.N := by have := t.isLt; have := s.isLt; omega
  rw [agg2_term, dif_pos hn]
  refine Finset.sum_congr rfl fun jj _ => agg2_blk_apply V c ⟨_, hn⟩ y jj i _ ?_ h1 ?_
  · show (i 0).val = 512 * ((5 * (t.val / 5) + s.val) / 5) + (y 0).val; omega
  · show jj.val + 2048 * s.val = 2048 * ((5 * (t.val / 5) + s.val) % 5) + jj.val; omega

abbrev agg2_G (c : Dev nD) : S10240x1280.Idx → EReal :=
  fun i => aggOf (V c main_v24) (V c main_v35) (i 0) (i 1)

theorem agg2_flushed_eq (c : Dev nD) (t : Fin cfg2.N) (hf : (cfg2.win 2).flush t = true) :
    (dat2 V c).flushed 2 t = ((cfg2.win 2).blk t).view.read (Elt Ideal) (agg2_G V c) := by
  obtain ⟨-, -, -, -, e4, e5⟩ := agg2_idx t
  funext y
  exact agg2_acc_flush V c t ((flush2_2 t).mp hf) y (((cfg2.win 2).blk t).view.emb y)
    (by show win2_2.index t (0 : Fin 2) * 512 + 1 * (y 0).val = _; omega)
    (by show win2_2.index t (1 : Fin 2) * 1280 + 1 * (y 1).val = _; omega)

-- Row r of the output array lies in the block of the last point of row block r / 512.
theorem agg2_cover (i : S10240x1280.Idx) :
    ∃ t : Fin cfg2.N, (cfg2.win 2).flush t = true ∧ i ∈ ((cfg2.win 2).blk t).view.set := by
  have hi0 := idx2_lt0 i
  have hi1 := idx2_lt1 i
  have hN : cfg2.N = 100 := N_2
  obtain ⟨t, ht⟩ : ∃ t : Fin cfg2.N, t.val = 5 * ((i 0).val / 512) + 4 := ⟨⟨_, by omega⟩, rfl⟩
  obtain ⟨-, -, -, -, e4, e5⟩ := agg2_idx t
  refine ⟨t, (flush2_2 t).mpr (by omega), ?_⟩
  show i ∈ ((View.whole main_v36).slice (win2_2.rect t)).set
  rw [View.set_slice_whole, Rect.mem_set_unit]
  intro a
  match a with
  | ⟨0, _⟩ =>
    show win2_2.index t (0 : Fin 2) * 512 ≤ (i 0).val ∧ (i 0).val < win2_2.index t (0 : Fin 2) * 512 + 512
    omega
  | ⟨1, _⟩ =>
    show win2_2.index t (1 : Fin 2) * 1280 ≤ (i 1).val ∧ (i 1).val < win2_2.index t (1 : Fin 2) * 1280 + 1280
    omega

theorem agg2_value (c : Dev nD) (r : Fin 10240) (d : Fin 1280) :
    ((dat2 (F := Ideal) V c).arrAt 2 cfg2.N : S10240x1280.Idx → EReal) (ix2 r d)
      = aggOf (V c main_v24) (V c main_v35) r d :=
  congrFun ((dat2 (F := Ideal) V c).arrAt_eq_of_cover 2 (agg2_G V c) (agg2_flushed_eq V c) agg2_cover) (ix2 r d)

end Cert.KernelIdeal.HandVal.Agg2

end
-- ==== Proof.Val.ChainH.lean ====
import proofs.«425851_j42021960024258_2_alg».proof.Proof.KI.Fold
import proofs.«425851_j42021960024258_2_alg».proof.Proof.Gen.KernelIdeal.Regions
import proofs.«425851_j42021960024258_2_alg».proof.Proof.Val.Lin
import proofs.«425851_j42021960024258_2_alg».proof.Proof.Val.Lin3
import proofs.«425851_j42021960024258_2_alg».proof.Proof.Val.Agg
import proofs.«425851_j42021960024258_2_alg».proof.Proof.Val.Agg2
import proofs.«425851_j42021960024258_2_alg».proof.Proof.Val.Host
import proofs.«425851_j42021960024258_2_alg».proof.Proof.Math.Net
import Idealize.ShloMosaic.Lib.StableHlo.Run
import Idealize.ShloMosaic.Lib.Pipeline.Value
import Idealize.ShloMosaic.Lib.ValueIdx

set_option maxRecDepth 16384

noncomputable section

namespace Cert.KernelIdeal.HandVal.ChainH

open Cert.KernelIdeal Cert.KernelIdeal.Gen Cert.KernelIdeal.Hand Cert.KernelIdeal.HandVal
open Idealize.ShloMosaic Idealize.ShloMosaic.TcCoe Idealize.SL.Sem Idealize.ShloMosaic.StableHlo
open Idealize.ShloMosaic.ValueIdx
open Idealize.ShloMosaic.Pipeline (Dat)
open Cert.Spec
open scoped BigOperators

-- An array whose entries are the sums of a linear region over a table-times-rows array is one dense layer.
theorem dlayer_of {A A' : S10240x10240.Idx → EReal} {X X' X'' G Y : S10240x1280.Idx → EReal}
    {Wt : S1280x1280.Idx → EReal} {B : S1x1280.Idx → EReal} {W : SW.Idx → EReal} {b : SB.Idx → EReal}
    (hY : ∀ r d, Y (ix2 r d) = (∑ k : Fin 1280, (X' (ix2 r k) + G (ix2 r k)) * Wt (ix2 k d)) + B (ix2 0 d))
    (hG : ∀ r k, G (ix2 r k) = ∑ j : Fin 10240, A' (ix2 r j) * X'' (ix2 j k))
    (hX' : X' = X) (hA : A' = A) (hX'' : X'' = X)
    (hW : ∀ k' k, Wt (ix2 k' k) = W (ix2 k k')) (hB : ∀ k, B (ix2 0 k) = b (ix1 k)) (R : Fin 10240) (k : Fin 1280) :
    Y (ix2 R k) = Cert.Bridge.dlayer (fun R j => A (ix2 R j)) (fun R k => X (ix2 R k)) W b R k := by
  subst hX' hA hX''
  unfold Cert.Bridge.dlayer
  rw [hY, hB]
  exact congrArg (· + b (ix1 k)) (Finset.sum_congr rfl fun k' _ => by rw [hG, hW])

variable (m : (ℓ : Loc nD τ sig) → Buf (Elt Ideal) ℓ) (ρ : Dev nD → PrngReg)

def chainA (c : Dev nD) : Fin 10240 → Fin 10240 → EReal := fun R j =>
  (W3 m ρ c (Proc.devRef .tc main_v24) : S10240x10240.Idx → EReal) (ix2 R j)
def chainFp (c : Dev nD) : Fin 10240 → Fin 1280 → EReal := fun R k =>
  (W3 m ρ c (Proc.devRef .tc main_v25) : S10240x1280.Idx → EReal) (ix2 R k)
def chainH1 (c : Dev nD) : Fin 10240 → Fin 1280 → EReal := fun R k =>
  (W5 m ρ c (Proc.devRef .tc main_v34) : S10240x1280.Idx → EReal) (ix2 R k)
def chainH2 (c : Dev nD) : Fin 10240 → Fin 1280 → EReal := fun R d =>
  (W8 m ρ c (Proc.devRef .tc main_v37) : S10240x1280.Idx → EReal) (ix2 R d)
def chainW1 (c : Dev nD) : SW.Idx → EReal := W0 m ρ c (Proc.devRef .tc main_arg3)
def chainB1 (c : Dev nD) : SB.Idx → EReal := W0 m ρ c (Proc.devRef .tc main_arg4)
def chainW2 (c : Dev nD) : SW.Idx → EReal := W0 m ρ c (Proc.devRef .tc main_arg5)
def chainB2 (c : Dev nD) : SB.Idx → EReal := W0 m ρ c (Proc.devRef .tc main_arg6)

theorem kept_W2 (c : Dev nD) (r : Ref sig .tc) (h0 : r ∉ hostOps0_W := by decide) (h1 : r ∉ hostOps0_1_W := by decide) :
    W2 m ρ c (Proc.devRef .tc r) = W0 m ρ c (Proc.devRef .tc r) :=
  (after_of_writes_sub hostOps0_1 _ hostOps0_1_writes h1).trans (after_of_writes_sub hostOps0 _ hostOps0_writes h0)

theorem kept_V7 (c : Dev nD) (r : Ref sig .tc) (h2 : ∀ w, Pipeline.arrRef spec2 w ≠ r := by decide)
    (hh : r ∉ hostOps2_W := by decide) (h1 : ∀ w, Pipeline.arrRef spec1 w ≠ r := by decide)
    (h0 : ∀ w, Pipeline.arrRef spec0 w ≠ r := by decide) : V7 m ρ c r = W3 m ρ c (Proc.devRef .tc r) :=
  (W7_of_ne m ρ c r h2).trans ((after_of_writes_sub hostOps2 _ hostOps2_writes hh).trans
    ((W5_of_ne m ρ c r h1).trans (W4_of_ne m ρ c r h0)))

theorem val_h1 (c : Dev nD) (R : Fin 10240) (k : Fin 1280) :
    chainH1 m ρ c R k
      = Cert.Bridge.dlayer (chainA m ρ c) (chainFp m ρ c) (chainW1 m ρ c) (chainB1 m ρ c) R k :=
  dlayer_of (fun r d => (congrFun (W5_arr m ρ c 4) _).trans (Lin1.lin1_value (V4 m ρ) c r d))
    (fun r d => (congrFun (W4_arr m ρ c 2) _).trans (Agg0.agg0_value (V3 m ρ) c r d))
    (W4_of_ne m ρ c main_v25 (by decide)) rfl ((host0_2_v32 _).trans (host0_2_v25 _).symm)
    (fun k' k => (congrFun (W4_of_ne m ρ c main_v27 (by decide)) _).trans
      ((host0_2_v27 _ k' k).trans (congrFun (kept_W2 m ρ c main_arg3) _)))
    (fun k => (congrFun (W4_of_ne m ρ c main_v30 (by decide)) _).trans
      ((host0_2_v30 _ k).trans (congrFun (kept_W2 m ρ c main_arg4) _))) R k

theorem V6_v24 (c : Dev nD) : V6 m ρ c main_v24 = W3 m ρ c (Proc.devRef .tc main_v24) :=
  (after_of_writes_sub hostOps2 _ hostOps2_writes (by decide)).trans ((W5_of_ne m ρ c main_v24 (by decide)).trans
    ((W4_arr m ρ c 0).trans (((dat0 (V3 m ρ) c).arrAt_in 0 rfl _).trans (A_eq0 (V3 m ρ) c 0))))

theorem val_h2 (c : Dev nD) (R : Fin 10240) (d : Fin 1280) :
    chainH2 m ρ c R d
      = Cert.Bridge.dlayer (chainA m ρ c) (chainH1 m ρ c) (chainW2 m ρ c) (chainB2 m ρ c) R d :=
  dlayer_of (fun r d => (congrFun (W8_arr m ρ c 4) _).trans (Lin3.lin3_value (V7 m ρ) c r d))
    (fun r d => (congrFun (W7_arr m ρ c 2) _).trans (Agg2.agg2_value (V6 m ρ) c r d))
    ((W7_of_ne m ρ c main_v34 (by decide)).trans (after_of_writes_sub hostOps2 _ hostOps2_writes (by decide)))
    (V6_v24 m ρ c) (host2_v35 _)
    (fun k' k => (congrFun (kept_V7 m ρ c main_v29) _).trans
      ((host0_2_v29 _ k' k).trans (congrFun (kept_W2 m ρ c main_arg5) _)))
    (fun k => (congrFun (kept_V7 m ρ c main_v31) _).trans
      ((host0_2_v31 _ k).trans (congrFun (kept_W2 m ρ c main_arg6) _))) R d

end Cert.KernelIdeal.HandVal.ChainH

end
-- ==== Proof.Val.Chain.lean ====
import proofs.«425851_j42021960024258_2_alg».proof.Proof.KI.Fold
import proofs.«425851_j42021960024258_2_alg».proof.Proof.Gen.KernelIdeal.Regions
import proofs.«425851_j42021960024258_2_alg».proof.Proof.Spec
import proofs.«425851_j42021960024258_2_alg».proof.Proof.Math.Net
import proofs.«425851_j42021960024258_2_alg».proof.Proof.Val.Host
import proofs.«425851_j42021960024258_2_alg».proof.Proof.Val.HostAdj
import proofs.«425851_j42021960024258_2_alg».proof.Proof.Val.Pool
import proofs.«425851_j42021960024258_2_alg».proof.Proof.Val.ChainH
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand Cert.Bridge Cert.Spec
open Idealize.ShloMosaic Idealize.ShloMosaic.TcCoe Idealize.ShloMosaic.ValueIdx Idealize.SL.Sem Idealize.ShloMosaic.StableHlo

namespace Chain

def at2 {n0 n1 : ℕ} (X : (⟨2, ![n0, n1]⟩ : Shape).Idx → EReal) (r : Fin n0) (k : Fin n1) : EReal := X (ix2 r k)

variable (m : (ℓ : Loc nD τ sig) → Buf (Elt Ideal) ℓ) (ρ : Dev nD → PrngReg) (c : Dev nD)

theorem arg0_W1 : W1 (F := Ideal) m ρ c (Proc.devRef .tc main_arg0) = m ((c : Thread nD τ).loc main_arg0) :=
  StableHlo.after_of_writes_sub (hostOps0 (F := Ideal)) _ hostOps0_writes (by decide)

theorem arg0_W9 : W9 (F := Ideal) m ρ c (Proc.devRef .tc main_arg0) = m ((c : Thread nD τ).loc main_arg0) :=
  (StableHlo.after_of_writes_sub (hostOps4 (F := Ideal)) _ hostOps4_writes (by decide)).trans
   ((W8_of_ne m ρ c main_arg0 (by decide)).trans
    ((W7_of_ne m ρ c main_arg0 (by decide)).trans
     ((StableHlo.after_of_writes_sub (hostOps2 (F := Ideal)) _ hostOps2_writes (by decide)).trans
      ((W5_of_ne m ρ c main_arg0 (by decide)).trans
       ((W4_of_ne m ρ c main_arg0 (by decide)).trans
        ((StableHlo.after_of_writes_sub (hostOps0_2 (F := Ideal)) _ hostOps0_2_writes (by decide)).trans
         ((StableHlo.after_of_writes_sub (hostOps0_1 (F := Ideal)) _ hostOps0_1_writes (by decide)).trans
          (arg0_W1 m ρ c))))))))

theorem v24_W3 : W3 (F := Ideal) m ρ c (Proc.devRef .tc main_v24) = W1 (F := Ideal) m ρ c (Proc.devRef .tc main_v24) :=
  (host0_2_v24 (W2 m ρ c)).trans (host0_1_v24 (W1 m ρ c))

theorem v25_W3 : W3 (F := Ideal) m ρ c (Proc.devRef .tc main_v25) = W2 (F := Ideal) m ρ c (Proc.devRef .tc main_v25) :=
  host0_2_v25 (W2 m ρ c)

theorem c5_W1 : (W1 (F := Ideal) m ρ c (Proc.devRef .tc main_c_5) : S_.Idx → BitVec 32) = constantI S_ 32 0#32 := by
  show (StableHlo.after (hostOps0 (F := Ideal)) (W0 m ρ c) (Proc.devRef .tc main_c_5) : S_.Idx → BitVec 32) = _
  dsimp only [hostOps0]
  after_results
  all_goals rfl

theorem adj_entry (hnn : ∀ i : SI.Idx, 0 ≤ ((m ((c : Thread nD τ).loc main_arg2) : SI.Idx → BitVec 32) i).toInt)
    (r j : Fin 10240) :
    at2 (W3 (F := Ideal) m ρ c (Proc.devRef .tc main_v24)) r j
      = (0 : EReal) + ∑ e ∈ Finset.univ.filter (fun e : Fin 160000 =>
          ((m ((c : Thread nD τ).loc main_arg2) : SI.Idx → BitVec 32) (ix2 1 e)).toInt = (r.val : ℤ)
            ∧ ((m ((c : Thread nD τ).loc main_arg2) : SI.Idx → BitVec 32) (ix2 0 e)).toInt = (j.val : ℤ)),
          ew (m ((c : Thread nD τ).loc main_arg1)) e :=
  (congrFun (v24_W3 m ρ c) (ix2 r j)).trans (host_adj (W0 m ρ c) hnn r j)

theorem feat_entry (r : Fin 10000) (k : Fin 1280) :
    at2 (W3 (F := Ideal) m ρ c (Proc.devRef .tc main_v25)) (up r) k
      = (m ((c : Thread nD τ).loc main_arg0) : SN.Idx → EReal) (ix2 r k) := by
  have h := host_pad (W1 m ρ c) (c5_W1 m ρ c) (up r) k
  rw [dif_pos (show (up r).val < 10000 from r.isLt)] at h
  exact (congrFun (v25_W3 m ρ c) (ix2 (up r) k)).trans (h.trans (congrFun (arg0_W1 m ρ c) (ix2 r k)))

theorem val_out (d : Fin 1280) :
    at2 (W10 (F := Ideal) m ρ c (Proc.devRef .tc main_v39)) 0 d
      = (∑ r : Fin 10000, (at2 (W8 (F := Ideal) m ρ c (Proc.devRef .tc main_v37)) (up r) d
            + at2 (m ((c : Thread nD τ).loc main_arg0)) r d)) * ((1 / 10000 : ℝ) : EReal) := by
  refine ((congrFun (W10_arr (F := Ideal) m ρ c 2) (ix2 0 d)).trans (Pool4.pool4_value (Hand.V9 m ρ) c d)).trans ?_
  unfold Pool4.poolOf
  refine congrArg (fun t => t * ((1 / 10000 : ℝ) : EReal)) (Finset.sum_congr rfl fun r _ => ?_)
  exact congrArg₂ (· + ·) (host4_v38 (W8 m ρ c) r d) (congrFun (arg0_W9 m ρ c) (ix2 r d))

end Chain

open Chain in
theorem kernel_out (m : (ℓ : Loc nD τ sig) → Buf (Elt Ideal) ℓ) (ρ : Dev nD → PrngReg) (c : Dev nD)
    (hnf : ∀ i, IsReal ((m ((c : Thread nD τ).loc main_arg0) : SN.Idx → EReal) i))
    (hef : ∀ i, IsReal ((m ((c : Thread nD τ).loc main_arg1) : SE.Idx → EReal) i))
    (hW1 : ∀ i, IsReal ((m ((c : Thread nD τ).loc main_arg3) : SW.Idx → EReal) i))
    (hb1 : ∀ i, IsReal ((m ((c : Thread nD τ).loc main_arg4) : SB.Idx → EReal) i))
    (hnn : ∀ i, 0 ≤ ((m ((c : Thread nD τ).loc main_arg2) : SI.Idx → BitVec 32) i).toInt)
    (hsrc : ∀ e : Fin 160000, ((m ((c : Thread nD τ).loc main_arg2) : SI.Idx → BitVec 32) (ix2 0 e)).toInt < 10000)
    (d : Fin 1280) :
    (W10 (F := Ideal) m ρ c (Proc.devRef .tc main_v39) : S1x1280.Idx → EReal) (ix2 0 d)
      = Cert.Spec.out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) d := by
  have e1 : at2 (W5 (F := Ideal) m ρ c (Proc.devRef .tc main_v34))
      = dlayer (at2 (W3 (F := Ideal) m ρ c (Proc.devRef .tc main_v24))) (at2 (W3 (F := Ideal) m ρ c (Proc.devRef .tc main_v25)))
          (m ((c : Thread nD τ).loc main_arg3)) (m ((c : Thread nD τ).loc main_arg4)) :=
    funext fun R => funext fun k => ChainH.val_h1 m ρ c R k
  refine (val_out m ρ c d).trans ?_
  refine Eq.trans ?_ (net_eq (m ((c : Thread nD τ).loc main_arg1))
    (m ((c : Thread nD τ).loc main_arg2)) hef hnn hsrc (at2 (W3 (F := Ideal) m ρ c (Proc.devRef .tc main_v24)))
    (adj_entry m ρ c hnn) (m ((c : Thread nD τ).loc main_arg0)) hnf
    (at2 (W3 (F := Ideal) m ρ c (Proc.devRef .tc main_v25))) (feat_entry m ρ c)
    (m ((c : Thread nD τ).loc main_arg3)) hW1 (m ((c : Thread nD τ).loc main_arg4)) hb1
    (m ((c : Thread nD τ).loc main_arg5)) (m ((c : Thread nD τ).loc main_arg6)) d)
  refine congrArg (fun t => t * ((1 / 10000 : ℝ) : EReal)) (Finset.sum_congr rfl fun r _ => ?_)
  refine congrArg₂ (· + ·) ?_ rfl
  have h2 : at2 (W8 (F := Ideal) m ρ c (Proc.devRef .tc main_v37)) (up r) d
      = dlayer (at2 (W3 (F := Ideal) m ρ c (Proc.devRef .tc main_v24))) (at2 (W5 (F := Ideal) m ρ c (Proc.devRef .tc main_v34)))
          (m ((c : Thread nD τ).loc main_arg5)) (m ((c : Thread nD τ).loc main_arg6)) (up r) d := ChainH.val_h2 m ρ c (up r) d
  rw [h2, e1]

end Cert.KernelIdeal.HandVal

end
-- ==== Proof.Algebraic.lean ====
import proofs.«425851_j42021960024258_2_alg».proof.Defs
import proofs.«425851_j42021960024258_2_alg».proof.Proof.Gen.KernelIdeal
import proofs.«425851_j42021960024258_2_alg».proof.Proof.Gen.ReferenceIdeal
import proofs.«425851_j42021960024258_2_alg».proof.Proof.Gen.Pre_finite_inputs
import proofs.«425851_j42021960024258_2_alg».proof.Proof.Gen.ReferenceIdeal.Run
import proofs.«425851_j42021960024258_2_alg».proof.Proof.Gen.ReferenceIdeal.Read
import proofs.«425851_j42021960024258_2_alg».proof.Proof.Pre
import proofs.«425851_j42021960024258_2_alg».proof.Proof.Spec
import proofs.«425851_j42021960024258_2_alg».proof.Proof.Math.Layer
import proofs.«425851_j42021960024258_2_alg».proof.Proof.KI.Run
import proofs.«425851_j42021960024258_2_alg».proof.Proof.KI.Keep
import proofs.«425851_j42021960024258_2_alg».proof.Proof.Val.Chain
import proofs.«425851_j42021960024258_2_alg».proof.Proof.Ref.Value
import Idealize.ShloMosaic.Lib.ValueIdx
import Idealize.ShloMosaic.Lib.StableHlo.RunLoop

set_option maxRecDepth 16384

noncomputable section

namespace Cert.Proof.Parts

open Idealize.ShloMosaic Idealize.ShloMosaic.TcCoe Idealize.SL.Sem Idealize.ShloMosaic.ValueIdx
open Cert.KernelIdeal (nD τ sig main_arg0 main_arg1 main_arg2 main_arg3 main_arg4 main_arg5 main_arg6 main_v39 S1x1280)
open Cert.KernelIdeal.Hand (W10 run_all W10_main_arg0 W10_main_arg1 W10_main_arg2 W10_main_arg3 W10_main_arg4 W10_main_arg5 W10_main_arg6)

variable (m : (ℓ : Loc nD τ sig) → Buf (Elt Ideal) ℓ) (c : Dev nD)

def G : S1x1280.Idx → EReal := fun i =>
  Cert.Spec.out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (i 1)

theorem idx_row0 (i : S1x1280.Idx) : i = ix2 (0 : Fin 1) (i 1) := by
  have h := eq_ix2 i
  rwa [show i 0 = (0 : Fin 1) from Subsingleton.elim (α := Fin 1) _ _] at h

theorem algebraic : Cert.algebraic_KernelIdeal_ReferenceIdeal := by
  intro m g m' g' hpre hagree
  refine ⟨fun c => G m c, ?_, ?_⟩
  · refine (θ_run (Cert.KernelIdeal.defs (F := Ideal)) _ _).mono (fun r h c => ?_) (run_all (F := Ideal) m g)
    obtain ⟨r0, r1, r3, r4, -, -, hnn, hlt⟩ := Cert.PreDecode.pre_decode _ _ _ _ _ _ _ (hpre c)
    have key : ∀ i : S1x1280.Idx, (W10 (F := Ideal) m g c (Proc.devRef .tc main_v39) : S1x1280.Idx → EReal) i = G m c i :=
      fun i => by rw [idx_row0 i]; exact Cert.KernelIdeal.HandVal.kernel_out m g c r0 r1 r3 r4 hnn hlt (i 1)
    exact ⟨(h c _ (StableHlo.devRef_mem_ucRefs main_v39 rfl)).trans (funext key),
      (h c _ (StableHlo.devRef_mem_ucRefs main_arg0 rfl)).trans (W10_main_arg0 m g c),
      (h c _ (StableHlo.devRef_mem_ucRefs main_arg1 rfl)).trans (W10_main_arg1 m g c),
      (h c _ (StableHlo.devRef_mem_ucRefs main_arg2 rfl)).trans (W10_main_arg2 m g c),
      (h c _ (StableHlo.devRef_mem_ucRefs main_arg3 rfl)).trans (W10_main_arg3 m g c),
      (h c _ (StableHlo.devRef_mem_ucRefs main_arg4 rfl)).trans (W10_main_arg4 m g c),
      (h c _ (StableHlo.devRef_mem_ucRefs main_arg5 rfl)).trans (W10_main_arg5 m g c),
      (h c _ (StableHlo.devRef_mem_ucRefs main_arg6 rfl)).trans (W10_main_arg6 m g c)⟩
  · refine (θ_run (Cert.ReferenceIdeal.defs (F := Ideal)) _ _).mono (fun r h c => ⟨(h c).1.trans ?_, (h c).2⟩)
      (Cert.ReferenceIdeal.Value.run (F := Ideal) m' g')
    obtain ⟨-, -, -, -, -, -, hnn, hlt⟩ := Cert.PreDecode.pre_decode _ _ _ _ _ _ _ (hpre c)
    obtain ⟨e0, e1, e2, e3, e4, e5, e6⟩ := hagree c
    rw [Cert.ReferenceIdeal.Read.val_main_v51_eq, e0, e1, e2, e3, e4, e5, e6]
    have key : ∀ i : S1x1280.Idx, (Cert.ReferenceIdeal.Read.val_main_v51 (F := Ideal) _ _ _ _ _ _ _ : S1x1280.Idx → EReal) i = G m c i :=
      fun i => by rw [idx_row0 i]; exact Cert.ReferenceIdeal.RefValue.ref_out _ _ _ _ _ _ _ (fun e => ⟨hnn (ix2 0 e), hlt e⟩) (i 1)
    exact funext key

end Cert.Proof.Parts

end
-- ==== Proof.lean ====
/-
  A two-layer graph network, mean-pooled. The reference sums, at each node, the features of its in-edges' sources times
  the edge weight 1 / (f² + ε); the kernel program multiplies by the dense table of summed edge weights instead. On real
  inputs with every edge source a node, the two agree by distributivity and an exchange of two finite sums.
-/
import proofs.«425851_j42021960024258_2_alg».proof.Defs
import proofs.«425851_j42021960024258_2_alg».proof.Proof.Gen.Kernel
import proofs.«425851_j42021960024258_2_alg».proof.Proof.Gen.KernelIdeal
import proofs.«425851_j42021960024258_2_alg».proof.Proof.Gen.ReferenceIdeal
import proofs.«425851_j42021960024258_2_alg».proof.Proof.Gen.Pre_finite_inputs
import proofs.«425851_j42021960024258_2_alg».proof.Proof.K.Frame
import proofs.«425851_j42021960024258_2_alg».proof.Proof.KI.Frame
import proofs.«425851_j42021960024258_2_alg».proof.Proof.Ref.Value
import proofs.«425851_j42021960024258_2_alg».proof.Proof.Algebraic

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  IdealRules.named_const.statement Cert.KernelIdeal.κ "inv_10000" .f32 0x38D1B717#32 ((1 / 10000 : ℝ) : EReal) rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Parts.algebraic⟩

end Cert.Proof

end
